-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x64x2 : Shape := ⟨3, ![32, 64, 2]⟩
abbrev S32x64 : Shape := ⟨2, ![32, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x64x2 : S_.BroadcastsInDim S32x64x2 (![] : Fin 0 → Fin S32x64x2.rank)
  reducesTo_S32x64x2_S_d0_1_2 : S32x64x2.ReducesTo [0, 1, 2] S_

variable [Facts]

def fn_part1 {F : FTy → Type} [FloatOps F] (main_v13 : IVec S_ 1) (main_v16 : IVec S32x64x2 1) : IVec S_ 1 :=
  let main_c_5 : IVec S_ 1 := constantI S_ 1 1#1
  let main_v17 : IVec S_ 1 := (fun x v => Host.reduce IntOp.andi x v reducesTo_S32x64x2_S_d0_1_2 h_S_) main_v16 main_c_5
  let main_v18 : IVec S_ 1 := andi main_v13 main_v17
  main_v18

def fn {F : FTy → Type} [FloatOps F] (main_arg0 : FVec F S32x256x64x64 .f32) (main_arg1 : FVec F S32x256x64x64 .f32) (main_arg2 : FVec F S32x64x2 .f32) (main_arg3 : FVec F S32x64x2 .f32) (main_arg4 : IVec S32x64 1) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S32x64x2 .f32 := Host.absf main_arg2
  let main_cst_2 : FVec F S_ .f32 := constant S_ .f32 0x7F800000#32
  let main_v10 : FVec F S32x64x2 .f32 := broadcastInDim S32x64x2 ![] bcast_S_S32x64x2 main_cst_2
  let main_v11 : IVec S32x64x2 1 := cmpf .olt main_v9 main_v10
  let main_c_3 : IVec S_ 1 := constantI S_ 1 1#1
  let main_v12 : IVec S_ 1 := (fun x v => Host.reduce IntOp.andi x v reducesTo_S32x64x2_S_d0_1_2 h_S_) main_v11 main_c_3
  let main_v13 : IVec S_ 1 := andi main_v8 main_v12
  let main_v14 : FVec F S32x64x2 .f32 := Host.absf main_arg3
  let main_cst_4 : FVec F S_ .f32 := constant S_ .f32 0x7F800000#32
  let main_v15 : FVec F S32x64x2 .f32 := broadcastInDim S32x64x2 ![] bcast_S_S32x64x2 main_cst_4
  let main_v16 : IVec S32x64x2 1 := cmpf .olt main_v14 main_v15
  fn_part1 (F := F) main_v13 main_v16
-- ==== Kernel.lean ====
abbrev S32x256x64x64 : Shape := ⟨4, ![32, 256, 64, 64]⟩
abbrev S32x64x2 : Shape := ⟨3, ![32, 64, 2]⟩
abbrev S32x64 : Shape := ⟨2, ![32, 64]⟩
abbrev S32x256x4096 : Shape := ⟨3, ![32, 256, 4096]⟩
abbrev S32x64x1 : Shape := ⟨3, ![32, 64, 1]⟩
abbrev S_ : Shape := ⟨0, ![]⟩
abbrev S32x1x64 : Shape := ⟨3, ![32, 1, 64]⟩
abbrev S1x256x4096 : Shape := ⟨3, ![1, 256, 4096]⟩
abbrev S1x1x64 : Shape := ⟨3, ![1, 1, 64]⟩
abbrev S256x4096 : Shape := ⟨2, ![256, 4096]⟩
abbrev S4096 : Shape := ⟨1, ![4096]⟩
abbrev S1x4096 : Shape := ⟨2, ![1, 4096]⟩
abbrev S1x64 : Shape := ⟨2, ![1, 64]⟩
abbrev S4096x64 : Shape := ⟨2, ![4096, 64]⟩
abbrev S256x64 : Shape := ⟨2, ![256, 64]⟩
abbrev S64x4096 : Shape := ⟨2, ![64, 4096]⟩
abbrev S64 : Shape := ⟨1, ![64]⟩
abbrev S64x1 : Shape := ⟨2, ![64, 1]⟩

abbrev nBuf : Space → Nat
  | .hbm => 84
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x64x2, .f32⟩
  | .hbm, ⟨3, _⟩ => ⟨S32x64x2, .f32⟩
  | .hbm, ⟨4, _⟩ => ⟨S32x64, .i1⟩
  | .hbm, ⟨5, _⟩ => ⟨S32x256x4096, .f32⟩
  | .hbm, ⟨6, _⟩ => ⟨S32x256x4096, .f32⟩
  | .hbm, ⟨7, _⟩ => ⟨S32x64x1, .f32⟩
  | .hbm, ⟨8, _⟩ => ⟨S32x64, .f32⟩
  | .hbm, ⟨9, _⟩ => ⟨S_, .f32⟩
  | .hbm, ⟨10, _⟩ => ⟨S32x64, .f32⟩
  | .hbm, ⟨11, _⟩ => ⟨S32x64, .f32⟩
  | .hbm, ⟨12, _⟩ => ⟨S32x64, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S32x64, .i32⟩
  | .hbm, ⟨17, _⟩ => ⟨S32x64, .i32⟩
  | .hbm, ⟨18, _⟩ => ⟨S_, .i32⟩
  | .hbm, ⟨19, _⟩ => ⟨S32x64, .i32⟩
  | .hbm, ⟨20, _⟩ => ⟨S32x64, .i32⟩
  | .hbm, ⟨21, _⟩ => ⟨S32x64x1, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S32x64, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S32x64, .i32⟩
  | .hbm, ⟨31, _⟩ => ⟨S32x64, .i32⟩
  | .hbm, ⟨32, _⟩ => ⟨S_, .i32⟩
  | .hbm, ⟨33, _⟩ => ⟨S32x64, .i32⟩
  | .hbm, ⟨34, _⟩ => ⟨S32x64, .i32⟩
  | .hbm, ⟨35, _⟩ => ⟨S_, .i32⟩
  | .hbm, ⟨36, _⟩ => ⟨S32x64, .i32⟩
  | .hbm, ⟨37, _⟩ => ⟨S32x64, .i32⟩
  | .hbm, ⟨38, _⟩ => ⟨S32x64, .i32⟩
  | .hbm, ⟨39, _⟩ => ⟨S32x1x64, .i32⟩
  | .hbm, ⟨40, _⟩ => ⟨S32x64x1, .f32⟩
  | .hbm, ⟨41, _⟩ => ⟨S32x64, .f32⟩
  | .hbm, ⟨42, _⟩ => ⟨S_, .f32⟩
  | .hbm, ⟨43, _⟩ => ⟨S32x64, .f32⟩
  | .hbm, ⟨44, _⟩ => ⟨S32x64, .f32⟩
  | .hbm, ⟨45, _⟩ => ⟨S32x64, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S32x64, .i32⟩
  | .hbm, ⟨50, _⟩ => ⟨S32x64, .i32⟩
  | .hbm, ⟨51, _⟩ => ⟨S_, .i32⟩
  | .hbm, ⟨52, _⟩ => ⟨S32x64, .i32⟩
  | .hbm, ⟨53, _⟩ => ⟨S32x64, .i32⟩
  | .hbm, ⟨54, _⟩ => ⟨S32x64x1, .f32⟩
  | .hbm, ⟨55, _⟩ => ⟨S32x64, .f32⟩
  | .hbm, ⟨56, _⟩ => ⟨S_, .f32⟩
  | .hbm, ⟨57, _⟩ => ⟨S32x64, .f32⟩
  | .hbm, ⟨58, _⟩ => ⟨S32x64, .f32⟩
  | .hbm, ⟨59, _⟩ => ⟨S32x64, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S32x64, .i32⟩
  | .hbm, ⟨64, _⟩ => ⟨S32x64, .i32⟩
  | .hbm, ⟨65, _⟩ => ⟨S_, .i32⟩
  | .hbm, ⟨66, _⟩ => ⟨S32x64, .i32⟩
  | .hbm, ⟨67, _⟩ => ⟨S32x64, .i32⟩
  | .hbm, ⟨68, _⟩ => ⟨S_, .i32⟩
  | .hbm, ⟨69, _⟩ => ⟨S32x64, .i32⟩
  | .hbm, ⟨70, _⟩ => ⟨S32x64, .i32⟩
  | .hbm, ⟨71, _⟩ => ⟨S32x64, .i32⟩
  | .hbm, ⟨72, _⟩ => ⟨S32x1x64, .i32⟩
  | .hbm, ⟨73, _⟩ => ⟨S32x1x64, .f32⟩
  | .hbm, ⟨74, _⟩ => ⟨S32x64, .f32⟩
  | .hbm, ⟨75, _⟩ => ⟨S32x64, .f32⟩
  | .hbm, ⟨76, _⟩ => ⟨S_, .f32⟩
  | .hbm, ⟨77, _⟩ => ⟨S_, .f32⟩
  | .hbm, ⟨78, _⟩ => ⟨S32x64, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x64, .i32⟩
  | .local _ .vmem, ⟨5, _⟩ => ⟨S1x1x64, .i32⟩
  | .local _ .vmem, ⟨6, _⟩ => ⟨S1x1x64, .i32⟩
  | .local _ .vmem, ⟨7, _⟩ => ⟨S1x1x64, .i32⟩
  | .local _ .vmem, ⟨8, _⟩ => ⟨S1x1x64, .f32⟩
  | .local _ .vmem, ⟨9, _⟩ => ⟨S1x1x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_c_7 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_8 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_9 : Ref sig .tc := ⟨.hbm, 60, rfl⟩
abbrev main_c_10 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v29 : Ref sig .tc := ⟨.hbm, 67, rfl⟩
abbrev main_c_11 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_12 : Ref sig .tc := ⟨.hbm, 76, rfl⟩
abbrev main_v37 : Ref sig .tc := ⟨.hbm, 77, rfl⟩
abbrev main_v38 : Ref sig .tc := ⟨.hbm, 78, rfl⟩
abbrev main_cst_13 : Ref sig .tc := ⟨.hbm, 79, rfl⟩
abbrev main_v39 : Ref sig .tc := ⟨.hbm, 80, rfl⟩
abbrev main_cst_14 : Ref sig .tc := ⟨.hbm, 81, rfl⟩
abbrev main_v40 : Ref sig .tc := ⟨.hbm, 82, rfl⟩
abbrev main_v41 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x256x64x64_S32x256x4096 : S32x256x64x64.ShapeCasts S32x256x4096
  slices_S32x64x2_S32x64x1_0_0_0 : S32x64x2.Slices ![0, 0, 0] S32x64x1
  shapeCasts_S32x64x1_S32x64 : S32x64x1.ShapeCasts S32x64
  bcast_S_S32x64 : S_.BroadcastsInDim S32x64 (![] : Fin 0 → Fin S32x64.rank)
  slices_S32x64x2_S32x64x1_0_0_1 : S32x64x2.Slices ![0, 0, 1] S32x64x1
  shapeCasts_S32x64_S32x1x64 : S32x64.ShapeCasts S32x1x64
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S4096 : S256x4096.Reduces [0] S4096
  shapeCasts_S4096_S1x4096 : S4096.ShapeCasts S1x4096
  broadcasts_S1x4096_S256x4096 : S1x4096.Broadcasts S256x4096
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  iota_S4096x64_d0_w32 : S4096x64.Iotas .tc 32 [0]
  broadcasts_S1x64_S4096x64 : S1x64.Broadcasts S4096x64
  natLt_1_32 : 1 < 32
  reduces_S64x4096_S64 : S64x4096.Reduces [1] S64
  shapeCasts_S64_S64x1 : S64.ShapeCasts S64x1
  broadcasts_S64x1_S64x4096 : S64x1.Broadcasts S64x4096
  shapeCasts_S1x64_S64x1 : S1x64.ShapeCasts S64x1
  iota_S64x4096_d1_w32 : S64x4096.Iotas .tc 32 [1]
  shapeCasts_S64x1_S1x64 : S64x1.ShapeCasts S1x64
  shapeCasts_S1x64_S1x1x64 : S1x64.ShapeCasts S1x1x64
  shapeCasts_S32x1x64_S32x64 : S32x1x64.ShapeCasts S32x64
  reducesTo_S32x64_S_d0_1 : S32x64.ReducesTo [0, 1] S_
  h_S_ : 0 < S_.numel
  dot_S256x4096_S4096x64_S256x64_1_0_0_1_n_n_wf : DotDims.WF S256x4096 S4096x64 S256x64 [1] [0] [0] [1] [] []
  dot_S256x64_S256x4096_S64x4096_0_0_1_1_n_n_wf : DotDims.WF S256x64 S256x4096 S64x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S32x256x4096.size a
  hwx0_1 : ∀ i : grid0.Coords, EltTy.bits .f32 = 32 ∨ (Rect.block (s := S32x256x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S32x1x64.size a
  hwx0_2 : ∀ i : grid0.Coords, EltTy.bits .i32 = 32 ∨ (Rect.block (s := S32x1x64) S1x1x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S32x1x64.size a
  hwx0_3 : ∀ i : grid0.Coords, EltTy.bits .i32 = 32 ∨ (Rect.block (s := S32x1x64) S1x1x64.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S32x1x64.size a
  hwx0_4 : ∀ i : grid0.Coords, EltTy.bits .f32 = 32 ∨ (Rect.block (s := S32x1x64) S1x1x64.size (cc0_transform_4 i) (hinb0_4 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S256x4096_S64x4096_0_0_1_1_n_n : DotDims S256x64 S256x4096 S64x4096 where
  lhsContracting := [0]
  rhsContracting := [0]
  lhsNonContracting := [1]
  rhsNonContracting := [1]
  lhsBatch := []
  rhsBatch := []
  wf := dot_S256x64_S256x4096_S64x4096_0_0_1_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x1x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x64x2 : Shape := ⟨3, ![32, 64, 2]⟩
abbrev S32x64 : Shape := ⟨2, ![32, 64]⟩
abbrev S_ : Shape := ⟨0, ![]⟩
abbrev S32x64x64 : Shape := ⟨3, ![32, 64, 64]⟩
abbrev S32x1x64x64 : Shape := ⟨4, ![32, 1, 64, 64]⟩
abbrev S32x256x4096 : Shape := ⟨3, ![32, 256, 4096]⟩
abbrev S32x64x1 : Shape := ⟨3, ![32, 64, 1]⟩
abbrev S32x1x64 : Shape := ⟨3, ![32, 1, 64]⟩
abbrev S1 : Shape := ⟨1, ![1]⟩
abbrev S1x1x1 : Shape := ⟨3, ![1, 1, 1]⟩
abbrev S32x256x64 : Shape := ⟨3, ![32, 256, 64]⟩
abbrev S32x64x4096 : Shape := ⟨3, ![32, 64, 4096]⟩
abbrev S32x64x1x1 : Shape := ⟨4, ![32, 64, 1, 1]⟩
abbrev S1x1x1x1 : Shape := ⟨4, ![1, 1, 1, 1]⟩

abbrev nBuf : Space → Nat
  | .hbm => 168
  | .vmem => 0
  | .smem => 0
  | _ => 0

abbrev hbmTy0_0 (i : Nat) : BufTy := match i % 128 with
  | 0 => ⟨S32x256x64x64, .f32⟩
  | 1 => ⟨S32x256x64x64, .f32⟩
  | 2 => ⟨S32x64x2, .f32⟩
  | 3 => ⟨S32x64x2, .f32⟩
  | 4 => ⟨S32x64, .i1⟩
  | 5 => ⟨S32x256x64x64, .f32⟩
  | 6 => ⟨S_, .f32⟩
  | 7 => ⟨S32x64x64, .f32⟩
  | 8 => ⟨S32x1x64x64, .f32⟩
  | 9 => ⟨S32x1x64x64, .f32⟩
  | 10 => ⟨S_, .f32⟩
  | 11 => ⟨S32x1x64x64, .f32⟩
  | 12 => ⟨S32x1x64x64, .f32⟩
  | 13 => ⟨S32x256x64x64, .f32⟩
  | 14 => ⟨S32x256x64x64, .f32⟩
  | 15 => ⟨S32x256x4096, .f32⟩
  | 16 => ⟨S32x256x64x64, .f32⟩
  | 17 => ⟨S_, .f32⟩
  | 18 => ⟨S32x64x64, .f32⟩
  | 19 => ⟨S32x1x64x64, .f32⟩
  | 20 => ⟨S32x1x64x64, .f32⟩
  | 21 => ⟨S_, .f32⟩
  | 22 => ⟨S32x1x64x64, .f32⟩
  | 23 => ⟨S32x1x64x64, .f32⟩
  | 24 => ⟨S32x256x64x64, .f32⟩
  | 25 => ⟨S32x256x64x64, .f32⟩
  | 26 => ⟨S32x256x4096, .f32⟩
  | 27 => ⟨S32x64x1, .f32⟩
  | 28 => ⟨S32x64, .f32⟩
  | 29 => ⟨S_, .f32⟩
  | 30 => ⟨S32x64, .f32⟩
  | 31 => ⟨S32x64, .f32⟩
  | 32 => ⟨S32x64, .i32⟩
  | 33 => ⟨S_, .i32⟩
  | 34 => ⟨S_, .i32⟩
  | 35 => ⟨S_, .i32⟩
  | 36 => ⟨S32x64, .i32⟩
  | 37 => ⟨S32x64, .i32⟩
  | 38 => ⟨S_, .i32⟩
  | 39 => ⟨S32x64, .i32⟩
  | 40 => ⟨S32x64, .i32⟩
  | 41 => ⟨S32x64x1, .f32⟩
  | 42 => ⟨S32x64, .f32⟩
  | 43 => ⟨S_, .f32⟩
  | 44 => ⟨S32x64, .f32⟩
  | 45 => ⟨S32x64, .f32⟩
  | 46 => ⟨S32x64, .i32⟩
  | 47 => ⟨S_, .i32⟩
  | 48 => ⟨S_, .i32⟩
  | 49 => ⟨S_, .i32⟩
  | 50 => ⟨S32x64, .i32⟩
  | 51 => ⟨S32x64, .i32⟩
  | 52 => ⟨S_, .i32⟩
  | 53 => ⟨S32x64, .i32⟩
  | 54 => ⟨S32x64, .i32⟩
  | 55 => ⟨S_, .i32⟩
  | 56 => ⟨S32x64, .i32⟩
  | 57 => ⟨S32x64, .i32⟩
  | 58 => ⟨S32x64, .i32⟩
  | 59 => ⟨S32x64x1, .f32⟩
  | 60 => ⟨S32x64, .f32⟩
  | 61 => ⟨S_, .f32⟩
  | 62 => ⟨S32x64, .f32⟩
  | 63 => ⟨S32x64, .f32⟩
  | 64 => ⟨S32x64, .i32⟩
  | 65 => ⟨S_, .i32⟩
  | 66 => ⟨S_, .i32⟩
  | 67 => ⟨S_, .i32⟩
  | 68 => ⟨S32x64, .i32⟩
  | 69 => ⟨S32x64, .i32⟩
  | 70 => ⟨S_, .i32⟩
  | 71 => ⟨S32x64, .i32⟩
  | 72 => ⟨S32x64, .i32⟩
  | 73 => ⟨S32x64x1, .f32⟩
  | 74 => ⟨S32x64, .f32⟩
  | 75 => ⟨S_, .f32⟩
  | 76 => ⟨S32x64, .f32⟩
  | 77 => ⟨S32x64, .f32⟩
  | 78 => ⟨S32x64, .i32⟩
  | 79 => ⟨S_, .i32⟩
  | 80 => ⟨S_, .i32⟩
  | 81 => ⟨S_, .i32⟩
  | 82 => ⟨S32x64, .i32⟩
  | 83 => ⟨S32x64, .i32⟩
  | 84 => ⟨S_, .i32⟩
  | 85 => ⟨S32x64, .i32⟩
  | 86 => ⟨S32x64, .i32⟩
  | 87 => ⟨S_, .i32⟩
  | 88 => ⟨S32x64, .i32⟩
  | 89 => ⟨S32x64, .i32⟩
  | 90 => ⟨S32x64, .i32⟩
  | 91 => ⟨S32x1x64, .i32⟩
  | 92 => ⟨S_, .i32⟩
  | 93 => ⟨S32x1x64, .i32⟩
  | 94 => ⟨S32x1x64, .i1⟩
  | 95 => ⟨S_, .i32⟩
  | 96 => ⟨S32x1x64, .i32⟩
  | 97 => ⟨S32x1x64, .i32⟩
  | 98 => ⟨S32x1x64, .i32⟩
  | 99 => ⟨S32x64x1, .i32⟩
  | 100 => ⟨S1, .i32⟩
  | 101 => ⟨S_, .i32⟩
  | 102 => ⟨S32x64x1, .i32⟩
  | 103 => ⟨S32x64x1, .i1⟩
  | 104 => ⟨S1x1x1, .i32⟩
  | 105 => ⟨S32x64x1, .i32⟩
  | 106 => ⟨S32x64x1, .i1⟩
  | 107 => ⟨S32x64x1, .i1⟩
  | 108 => ⟨S_, .i1⟩
  | 109 => ⟨S32x64, .i1⟩
  | 110 => ⟨S32x256x64, .f32⟩
  | 111 => ⟨S32x256x64, .i1⟩
  | 112 => ⟨S_, .f32⟩
  | 113 => ⟨S32x256x64, .f32⟩
  | 114 => ⟨S32x256x64, .f32⟩
  | 115 => ⟨S32x64x4096, .f32⟩
  | 116 => ⟨S_, .f32⟩
  | 117 => ⟨S32x64x4096, .f32⟩
  | 118 => ⟨S32x64x4096, .f32⟩
  | 119 => ⟨S_, .f32⟩
  | 120 => ⟨S32x64, .f32⟩
  | 121 => ⟨S_, .f32⟩
  | 122 => ⟨S32x64, .f32⟩
  | 123 => ⟨S32x64, .f32⟩
  | 124 => ⟨S32x64x1, .f32⟩
  | 125 => ⟨S32x64x4096, .f32⟩
  | 126 => ⟨S32x64x4096, .f32⟩
  | 127 => ⟨S32x64x4096, .f32⟩
  | _ => ⟨S32x256x64x64, .f32⟩

abbrev hbmTy0_1 (i : Nat) : BufTy := match i % 128 with
  | 0 => ⟨S_, .f32⟩
  | 1 => ⟨S32x64, .f32⟩
  | 2 => ⟨S32x64x1, .f32⟩
  | 3 => ⟨S32x64x1, .f32⟩
  | 4 => ⟨S32x64x4096, .f32⟩
  | 5 => ⟨S32x64x4096, .f32⟩
  | 6 => ⟨S32x64x1, .i32⟩
  | 7 => ⟨S_, .i32⟩
  | 8 => ⟨S32x64x1, .i32⟩
  | 9 => ⟨S32x64x1, .i1⟩
  | 10 => ⟨S_, .i32⟩
  | 11 => ⟨S32x64x1, .i32⟩
  | 12 => ⟨S32x64x1, .i32⟩
  | 13 => ⟨S32x64x1, .i32⟩
  | 14 => ⟨S32x64x1x1, .i32⟩
  | 15 => ⟨S1, .i32⟩
  | 16 => ⟨S_, .i32⟩
  | 17 => ⟨S32x64x1x1, .i32⟩
  | 18 => ⟨S32x64x1x1, .i1⟩
  | 19 => ⟨S1x1x1x1, .i32⟩
  | 20 => ⟨S32x64x1x1, .i32⟩
  | 21 => ⟨S32x64x1x1, .i1⟩
  | 22 => ⟨S32x64x1x1, .i1⟩
  | 23 => ⟨S_, .i1⟩
  | 24 => ⟨S32x64x1, .i1⟩
  | 25 => ⟨S32x64x1, .f32⟩
  | 26 => ⟨S_, .f32⟩
  | 27 => ⟨S32x64x1, .f32⟩
  | 28 => ⟨S32x64x1, .f32⟩
  | 29 => ⟨S32x64, .f32⟩
  | 30 => ⟨S32x64, .f32⟩
  | 31 => ⟨S32x64, .f32⟩
  | 32 => ⟨S_, .f32⟩
  | 33 => ⟨S_, .f32⟩
  | 34 => ⟨S32x64, .f32⟩
  | 35 => ⟨S_, .f32⟩
  | 36 => ⟨S_, .f32⟩
  | 37 => ⟨S_, .f32⟩
  | 38 => ⟨S_, .f32⟩
  | 39 => ⟨S_, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_c_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_c_5 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_8 : Ref sig .tc := ⟨.hbm, 65, rfl⟩
abbrev main_c_9 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_10 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_11 : Ref sig .tc := ⟨.hbm, 79, rfl⟩
abbrev main_c_12 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_v38 : Ref sig .tc := ⟨.hbm, 86, rfl⟩
abbrev main_c_13 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_call6_c : Ref sig .tc := ⟨.hbm, 92, rfl⟩
abbrev main_call6_v0 : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_v5 : Ref sig .tc := ⟨.hbm, 99, rfl⟩
abbrev main_call6_c_1 : Ref sig .tc := ⟨.hbm, 100, rfl⟩
abbrev main_call6_c_2 : Ref sig .tc := ⟨.hbm, 101, rfl⟩
abbrev main_call6_v6 : Ref sig .tc := ⟨.hbm, 102, rfl⟩
abbrev main_call6_v7 : Ref sig .tc := ⟨.hbm, 103, rfl⟩
abbrev main_call6_v8 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_c_3 : Ref sig .tc := ⟨.hbm, 108, rfl⟩
abbrev main_call6_v12 : Ref sig .tc := ⟨.hbm, 109, rfl⟩
abbrev main_call6_v13 : Ref sig .tc := ⟨.hbm, 110, rfl⟩
abbrev main_call6_v14 : Ref sig .tc := ⟨.hbm, 111, rfl⟩
abbrev main_call6_cst : Ref sig .tc := ⟨.hbm, 112, rfl⟩
abbrev main_call6_v15 : Ref sig .tc := ⟨.hbm, 113, rfl⟩
abbrev main_v43 : Ref sig .tc := ⟨.hbm, 114, rfl⟩
abbrev main_v44 : Ref sig .tc := ⟨.hbm, 115, rfl⟩
abbrev main_cst_14 : Ref sig .tc := ⟨.hbm, 116, rfl⟩
abbrev main_v45 : Ref sig .tc := ⟨.hbm, 117, rfl⟩
abbrev main_v46 : Ref sig .tc := ⟨.hbm, 118, rfl⟩
abbrev main_call7_cst : Ref sig .tc := ⟨.hbm, 119, rfl⟩
abbrev main_call7_v0 : Ref sig .tc := ⟨.hbm, 120, rfl⟩
abbrev main_call7_cst_0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_call7_v5 : Ref sig .tc := ⟨.hbm, 126, rfl⟩
abbrev main_call7_v6 : Ref sig .tc := ⟨.hbm, 127, rfl⟩
abbrev main_call7_cst_1 : Ref sig .tc := ⟨.hbm, 128, rfl⟩
abbrev main_call7_v7 : Ref sig .tc := ⟨.hbm, 129, rfl⟩
abbrev main_call7_v8 : Ref sig .tc := ⟨.hbm, 130, rfl⟩
abbrev main_call7_v9 : Ref sig .tc := ⟨.hbm, 131, rfl⟩
abbrev main_call7_v10 : Ref sig .tc := ⟨.hbm, 132, rfl⟩
abbrev main_v47 : Ref sig .tc := ⟨.hbm, 133, rfl⟩
abbrev main_v48 : Ref sig .tc := ⟨.hbm, 134, rfl⟩
abbrev main_call8_c : Ref sig .tc := ⟨.hbm, 135, rfl⟩
abbrev main_call8_v0 : Ref sig .tc := ⟨.hbm, 136, rfl⟩
abbrev main_call8_v1 : Ref sig .tc := ⟨.hbm, 137, rfl⟩
abbrev main_call8_c_0 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_call8_v5 : Ref sig .tc := ⟨.hbm, 142, rfl⟩
abbrev main_call8_c_1 : Ref sig .tc := ⟨.hbm, 143, rfl⟩
abbrev main_call8_c_2 : Ref sig .tc := ⟨.hbm, 144, rfl⟩
abbrev main_call8_v6 : Ref sig .tc := ⟨.hbm, 145, rfl⟩
abbrev main_call8_v7 : Ref sig .tc := ⟨.hbm, 146, rfl⟩
abbrev main_call8_v8 : Ref sig .tc := ⟨.hbm, 147, rfl⟩
abbrev main_call8_v9 : Ref sig .tc := ⟨.hbm, 148, rfl⟩
abbrev main_call8_v10 : Ref sig .tc := ⟨.hbm, 149, rfl⟩
abbrev main_call8_v11 : Ref sig .tc := ⟨.hbm, 150, rfl⟩
abbrev main_call8_c_3 : Ref sig .tc := ⟨.hbm, 151, rfl⟩
abbrev main_call8_v12 : Ref sig .tc := ⟨.hbm, 152, rfl⟩
abbrev main_call8_v13 : Ref sig .tc := ⟨.hbm, 153, rfl⟩
abbrev main_call8_cst : Ref sig .tc := ⟨.hbm, 154, rfl⟩
abbrev main_call8_v14 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_cst_15 : Ref sig .tc := ⟨.hbm, 160, rfl⟩
abbrev main_v53 : Ref sig .tc := ⟨.hbm, 161, rfl⟩
abbrev main_v54 : Ref sig .tc := ⟨.hbm, 162, rfl⟩
abbrev main_cst_16 : Ref sig .tc := ⟨.hbm, 163, rfl⟩
abbrev main_v55 : Ref sig .tc := ⟨.hbm, 164, rfl⟩
abbrev main_cst_17 : Ref sig .tc := ⟨.hbm, 165, rfl⟩
abbrev main_v56 : Ref sig .tc := ⟨.hbm, 166, rfl⟩
abbrev main_v57 : Ref sig .tc := ⟨.hbm, 167, rfl⟩

abbrev nD : Nat := 1
abbrev τ : Topo := Topo.v7x

variable {F : FTy → Type} [FloatOps F]

class Facts₀ : Prop where
  reducesTo_S32x256x64x64_S32x64x64_d1 : S32x256x64x64.ReducesTo [1] S32x64x64
  h_S_ : 0 < S_.numel
  bcast_S32x64x64_S32x1x64x64_0_2_3 : S32x64x64.BroadcastsInDim S32x1x64x64 (![0, 2, 3] : Fin 3 → Fin S32x1x64x64.rank)
  bcast_S_S32x1x64x64 : S_.BroadcastsInDim S32x1x64x64 (![] : Fin 0 → Fin S32x1x64x64.rank)
  bcast_S32x1x64x64_S32x256x64x64_0_1_2_3 : S32x1x64x64.BroadcastsInDim S32x256x64x64 (![0, 1, 2, 3] : Fin 4 → Fin S32x256x64x64.rank)
  shapeCasts_S32x256x64x64_S32x256x4096 : S32x256x64x64.ShapeCasts S32x256x4096
  slices_S32x64x2_S32x64x1_0_0_0 : S32x64x2.Slices ![0, 0, 0] S32x64x1
  shapeCasts_S32x64x1_S32x64 : S32x64x1.ShapeCasts S32x64
  bcast_S_S32x64 : S_.BroadcastsInDim S32x64 (![] : Fin 0 → Fin S32x64.rank)
  slices_S32x64x2_S32x64x1_0_0_1 : S32x64x2.Slices ![0, 0, 1] S32x64x1
  bcast_S32x64_S32x1x64_0_2 : S32x64.BroadcastsInDim S32x1x64 (![0, 2] : Fin 2 → Fin S32x1x64.rank)
  bcast_S_S32x1x64 : S_.BroadcastsInDim S32x1x64 (![] : Fin 0 → Fin S32x1x64.rank)
  shapeCasts_S32x1x64_S32x64x1 : S32x1x64.ShapeCasts S32x64x1
  bcast_S_S32x64x1 : S_.BroadcastsInDim S32x64x1 (![] : Fin 0 → Fin S32x64x1.rank)
  bcast_S1_S1x1x1_2 : S1.BroadcastsInDim S1x1x1 (![2] : Fin 1 → Fin S1x1x1.rank)
  bcast_S1x1x1_S32x64x1_0_1_2 : S1x1x1.BroadcastsInDim S32x64x1 (![0, 1, 2] : Fin 3 → Fin S32x64x1.rank)
  reducesTo_S32x64x1_S32x64_d2 : S32x64x1.ReducesTo [2] S32x64
  bcast_S32x64_S32x256x64_0_2 : S32x64.BroadcastsInDim S32x256x64 (![0, 2] : Fin 2 → Fin S32x256x64.rank)
  bcast_S_S32x256x64 : S_.BroadcastsInDim S32x256x64 (![] : Fin 0 → Fin S32x256x64.rank)
  bcast_S_S32x64x4096 : S_.BroadcastsInDim S32x64x4096 (![] : Fin 0 → Fin S32x64x4096.rank)
  reducesTo_S32x64x4096_S32x64_d2 : S32x64x4096.ReducesTo [2] S32x64
  bcast_S32x64_S32x64x1_0_1 : S32x64.BroadcastsInDim S32x64x1 (![0, 1] : Fin 2 → Fin S32x64x1.rank)
  bcast_S32x64x1_S32x64x4096_0_1_2 : S32x64x1.BroadcastsInDim S32x64x4096 (![0, 1, 2] : Fin 3 → Fin S32x64x4096.rank)
  shapeCasts_S32x64x1_S32x64x1x1 : S32x64x1.ShapeCasts S32x64x1x1
  bcast_S_S32x64x1x1 : S_.BroadcastsInDim S32x64x1x1 (![] : Fin 0 → Fin S32x64x1x1.rank)
  bcast_S1_S1x1x1x1_3 : S1.BroadcastsInDim S1x1x1x1 (![3] : Fin 1 → Fin S1x1x1x1.rank)
  bcast_S1x1x1x1_S32x64x1x1_0_1_2_3 : S1x1x1x1.BroadcastsInDim S32x64x1x1 (![0, 1, 2, 3] : Fin 4 → Fin S32x64x1x1.rank)
  reducesTo_S32x64x1x1_S32x64x1_d3 : S32x64x1x1.ReducesTo [3] S32x64x1
  reducesTo_S32x64_S_d0_1 : S32x64.ReducesTo [0, 1] S_
  gather_S32x256x4096_S32x64x1_S32x256x64_1_2_0_0_2_2_12561_wf : GatherDims.WF S32x256x4096 S32x64x1 S32x256x64 [1] [2] [0] [2] [0] 2 ![1, 256, 1]
  dot_S32x256x64_S32x256x4096_S32x64x4096_1_1_2_2_0_0_wf : DotDims.WF S32x256x64 S32x256x4096 S32x64x4096 [1] [1] [2] [2] [0] [0]
  gather_S32x64x4096_S32x64x1x1_S32x64x1_n_2_01_01_2_3_111_wf : GatherDims.WF S32x64x4096 S32x64x1x1 S32x64x1 [] [2] [0, 1] [2] [0, 1] 3 ![1, 1, 1]

variable [Facts₀]

def gather_S32x256x4096_S32x64x1_S32x256x64_1_2_0_0_2_2_12561 : GatherDims S32x256x4096 S32x64x1 S32x256x64 where
  offsetDims := [1]
  collapsedSliceDims := [2]
  operandBatchingDims := [0]
  startIndicesBatchingDims := [0]
  startIndexMap := [2]
  indexVectorDim := 2
  sliceSizes := ![1, 256, 1]
  wf := gather_S32x256x4096_S32x64x1_S32x256x64_1_2_0_0_2_2_12561_wf
def dot_S32x256x64_S32x256x4096_S32x64x4096_1_1_2_2_0_0 : DotDims S32x256x64 S32x256x4096 S32x64x4096 where
  lhsContracting := [1]
  rhsContracting := [1]
  lhsNonContracting := [2]
  rhsNonContracting := [2]
  lhsBatch := [0]
  rhsBatch := [0]
  wf := dot_S32x256x64_S32x256x4096_S32x64x4096_1_1_2_2_0_0_wf
def gather_S32x64x4096_S32x64x1x1_S32x64x1_n_2_01_01_2_3_111 : GatherDims S32x64x4096 S32x64x1x1 S32x64x1 where
  offsetDims := []
  collapsedSliceDims := [2]
  operandBatchingDims := [0, 1]
  startIndicesBatchingDims := [0, 1]
  startIndexMap := [2]
  indexVectorDim := 3
  sliceSizes := ![1, 1, 1]
  wf := gather_S32x64x4096_S32x64x1x1_S32x64x1_n_2_01_01_2_3_111_wf

class Facts : Prop extends Facts₀ where

variable [Facts]
-- ==== Proof.Spec.lean ====
/- The loss as one function of the argument arrays: the masked mean, over the keypoints, of minus the log-softmax at the target cell of the
   inner products of L2-normalised feature columns. With it the two facts both programs lean on: a clamped cell index is below 4096, and a sum
   against the indicator of one index is the summand there, since `0 * x = 0` for every extended real `x`. -/
import Idealize.ShloMosaic.PureOps.Ideal
import Idealize.ShloMosaic.PureOps.Ideal.Laws
import Idealize.ShloMosaic.PureOps.Contract
import Idealize.ShloMosaic.Lib.ValueIdx

noncomputable section

namespace Cert.DenseCE

open Idealize.ShloMosaic Idealize.ShloMosaic.ValueIdx

abbrev SFeat : Shape := ⟨4, ![32, 256, 64, 64]⟩
abbrev SKps : Shape := ⟨3, ![32, 64, 2]⟩
abbrev SBN : Shape := ⟨2, ![32, 64]⟩
abbrev S0 : Shape := ⟨0, ![]⟩

def eps : EReal := Ideal.ofBits .f32 0x2B8CBCCC#32
def temp : EReal := Ideal.ofBits .f32 0x3C23D70A#32
def stride : EReal := Ideal.ofBits .f32 0x41800000#32

def negInf : EReal := Ideal.ofBits .f32 0xFF800000#32

def normCol (f : Fin 256 → Fin 4096 → EReal) (c : Fin 256) (p : Fin 4096) : EReal :=
  Ideal.div (f c p) (max (Ideal.sqrt (∑ k : Fin 256, f k p * f k p)) eps)

def logit (fs ft : Fin 256 → Fin 4096 → EReal) (q p : Fin 4096) : EReal :=
  Ideal.div (∑ c : Fin 256, normCol fs c q * normCol ft c p) temp

def rowMax (g : Fin 4096 → EReal) : EReal := (Finset.univ : Finset (Fin 4096)).fold max negInf g

def logSoftmaxAt (g : Fin 4096 → EReal) (p : Fin 4096) : EReal :=
  (g p - rowMax g) - Ideal.log (∑ k : Fin 4096, Ideal.exp (g k - rowMax g))

def nllAt (fs ft : Fin 256 → Fin 4096 → EReal) (q t : Fin 4096) : EReal :=
  -(logSoftmaxAt (fun p => logit fs ft q p) t)

def cellCoord (v : EReal) : BitVec 32 :=
  IntOp.minsi 63#32 (IntOp.maxsi 0#32 (Ideal.fptosi 32 (Ideal.div v stride)))

def cellWord (kx ky : EReal) : BitVec 32 :=
  IntOp.addi (IntOp.muli (cellCoord ky) 64#32) (cellCoord kx)

theorem clamp63 (a : BitVec 32) : (IntOp.minsi 63#32 (IntOp.maxsi 0#32 a)).toNat ≤ 63 := by
  unfold IntOp.minsi IntOp.maxsi
  simp only [BitVec.slt, decide_eq_true_eq]
  have h63 : (63#32 : BitVec 32).toInt = 63 := by decide
  have h0 : (0#32 : BitVec 32).toInt = 0 := by decide
  split_ifs with h1 h2 h2
  · decide
  · decide
  · decide
  ·
    rw [h63] at h2; rw [h0] at h1
    have hle := BitVec.toInt_eq_toNat_cond a
    have hlt := a.isLt
    split_ifs at hle with hc <;> omega

theorem cellWord_lt (kx ky : EReal) : (cellWord kx ky).toNat < 4096 := by
  unfold cellWord cellCoord IntOp.addi IntOp.muli
  have hy := clamp63 (Ideal.fptosi 32 (Ideal.div ky stride))
  have hx := clamp63 (Ideal.fptosi 32 (Ideal.div kx stride))
  rw [BitVec.toNat_add, BitVec.toNat_mul]
  have : (64#32 : BitVec 32).toNat = 64 := by decide
  rw [this]
  omega

theorem cellWord_toInt (kx ky : EReal) : (cellWord kx ky).toInt = ((cellWord kx ky).toNat : Int) := by
  have h := cellWord_lt kx ky
  rw [BitVec.toInt_eq_toNat_cond]
  split_ifs with hc
  · rfl
  · omega

def cell (kx ky : EReal) : Fin 4096 := ⟨(cellWord kx ky).toNat, cellWord_lt kx ky⟩

def slab (x : SFeat.Idx → EReal) (b : Fin 32) : Fin 256 → Fin 4096 → EReal := fun c p =>
  x (ix4 b c ⟨p.val / 64, by have := p.isLt; omega⟩ ⟨p.val % 64, Nat.mod_lt _ (by decide)⟩)

def kpCell (k : SKps.Idx → EReal) (b : Fin 32) (n : Fin 64) : Fin 4096 :=
  cell (k (ix3 b n (0 : Fin 2))) (k (ix3 b n (1 : Fin 2)))

def nllBN (x y : SFeat.Idx → EReal) (ks kt : SKps.Idx → EReal) (b : Fin 32) (n : Fin 64) : EReal :=
  nllAt (slab x b) (slab y b) (kpCell ks b n) (kpCell kt b n)

def nll (x y : SFeat.Idx → EReal) (ks kt : SKps.Idx → EReal) : SBN.Idx → EReal := fun i => nllBN x y ks kt (i 0) (i 1)

def maskedMean (hr : SBN.ReducesTo [0, 1] S0) (h0 : 0 < S0.numel) (v : FVec Ideal SBN .f32) (mk : IVec SBN 1) : FVec Ideal S0 .f32 :=
  Host.divf (F := Ideal)
    (Host.reduceAdd (F := Ideal) (mulf v (uitofp (F := Ideal) .f32 mk)) (constant (F := Ideal) S0 .f32 0x00000000#32) hr h0)
    (maximumf (Host.reduceAdd (F := Ideal) (uitofp (F := Ideal) .f32 mk) (constant (F := Ideal) S0 .f32 0x00000000#32) hr h0)
      (constant (F := Ideal) S0 .f32 0x3F800000#32))

def loss (hr : SBN.ReducesTo [0, 1] S0) (h0 : 0 < S0.numel) (x y : SFeat.Idx → EReal) (ks kt : SKps.Idx → EReal) (mk : IVec SBN 1) :
    FVec Ideal S0 .f32 :=
  maskedMean hr h0 (nll x y ks kt) mk

theorem sum_mul_indicator {N : Nat} (f : Fin N → EReal) (q : Fin N) :
    ∑ p : Fin N, f p * (if p = q then (1 : EReal) else 0) = f q := by
  rw [Finset.sum_eq_single q]
  · rw [if_pos rfl, mul_one]
  · intro p _ hp; rw [if_neg hp, mul_zero]
  · intro h; exact absurd (Finset.mem_univ q) h

theorem sitofp_eq_word (a b : BitVec 32) :
    FloatOps.sitofp (F := Ideal) .f32 ((IntOp.cmpi .eq a b).setWidth 32) = if a = b then (1 : EReal) else 0 := by
  show (((((IntOp.cmpi .eq a b).setWidth 32).toInt : ℝ)) : EReal) = _
  unfold IntOp.cmpi
  by_cases h : a = b
  · subst h; simp
  · have : (a == b) = false := by simpa using h
    simp [this, h]

theorem max_negInf_rowMax (g : Fin 4096 → EReal) : max negInf (rowMax g) = rowMax g :=
  max_eq_right ((Finset.le_fold_max _).mpr (Or.inl le_rfl))

theorem zero_word : Ideal.ofBits .f32 0x00000000#32 = 0 := Ideal.ofBits_zero_f32

end Cert.DenseCE

end
-- ==== Proof.KernelLogits.lean ====
/- The logits the kernel body forms: each feature column divided by the larger of its norm and the floor, the source column picked by a
   product with a 0/1 indicator matrix, and the inner products over the channels divided by the temperature. -/
import proofs.«152961_j13554916786246_1_alg».proof.Proof.Gen.KernelIdeal.Skeleton
import proofs.«152961_j13554916786246_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.CE

open Idealize.ShloMosaic Idealize.ShloMosaic.TcCoe Idealize.ShloMosaic.ValueIdx
open Cert.KernelIdeal Cert.KernelIdeal.Gen Cert.DenseCE

private def nrm (v1 : FVec Ideal S256x4096 .f32) : FVec Ideal S256x4096 .f32 :=
  divf v1 (broadcastTo S256x4096
    (maximumf
      (sqrt (shapeCast S1x4096
        (multiReduction (F := Ideal) .add [0] S4096 (mulf v1 v1) 0x00000000#32 reduces_S256x4096_S4096 (.inl rfl) rfl)
        shapeCasts_S4096_S1x4096))
      (broadcast S1x4096 (Scalar.ofBits (F := Ideal) .f32 0x2B8CBCCC#32)))
    broadcasts_S1x4096_S256x4096)

private theorem sumsq_apply (v1 : FVec Ideal S256x4096 .f32) (p : Fin 4096) :
    multiReduction (F := Ideal) .add [0] S4096 (mulf v1 v1) 0x00000000#32 reduces_S256x4096_S4096 (.inl rfl) rfl (ix1 p)
      = ∑ k : Fin 256, v1 (ix2 k p) * v1 (ix2 k p) := by
  refine (Ideal.multiReduction_add_single (mulf v1 v1) _ reduces_S256x4096_S4096 (.inl rfl) rfl (ix1 p)).trans ?_
  refine Finset.sum_congr rfl fun k _ => ?_
  have e : reduces_S256x4096_S4096.lift (ix1 p) k = ix2 k p := by
    funext a
    refine Fin.ext ?_
    match a with
    | ⟨0, _⟩ => rfl
    | ⟨1, _⟩ => rfl
  rw [e]
  rfl

private theorem nrm_apply (v1 : FVec Ideal S256x4096 .f32) (c : Fin 256) (p : Fin 4096) :
    nrm v1 (ix2 c p) = normCol (fun c p => v1 (ix2 c p)) c p := by
  have hden : (broadcastTo S256x4096
      (maximumf
        (sqrt (shapeCast S1x4096
          (multiReduction (F := Ideal) .add [0] S4096 (mulf v1 v1) 0x00000000#32 reduces_S256x4096_S4096 (.inl rfl) rfl)
          shapeCasts_S4096_S1x4096))
        (broadcast S1x4096 (Scalar.ofBits (F := Ideal) .f32 0x2B8CBCCC#32)))
      broadcasts_S1x4096_S256x4096) (ix2 c p)
      = max (Ideal.sqrt (∑ k : Fin 256, v1 (ix2 k p) * v1 (ix2 k p))) eps := by
    refine (broadcastTo_1b_ab_apply _ broadcasts_S1x4096_S256x4096 c p).trans ?_
    refine (maximumf_apply _ _ _).trans ?_
    refine congrArg₂ max ?_ rfl
    show Ideal.sqrt _ = Ideal.sqrt _
    refine congrArg Ideal.sqrt ?_
    exact (shapeCast_a_1a_apply _ shapeCasts_S4096_S1x4096 0 p).trans (sumsq_apply v1 p)
  exact (divf_apply _ _ _).trans (congrArg (Ideal.div (v1 (ix2 c p))) hden)

private theorem nrm_sc_apply (v0 : Vec Ideal S1x256x4096 .f32) (c : Fin 256) (p : Fin 4096) :
    nrm (shapeCast S256x4096 v0 shapeCasts_S1x256x4096_S256x4096) (ix2 c p)
      = normCol (fun c p => v0 (ix3 (0 : Fin 1) c p)) c p := by
  refine (nrm_apply _ c p).trans ?_
  have e : (fun (c : Fin 256) (p : Fin 4096) => shapeCast S256x4096 v0 shapeCasts_S1x256x4096_S256x4096 (ix2 c p))
      = fun c p => v0 (ix3 (0 : Fin 1) c p) :=
    funext fun c => funext fun p => shapeCast_1ab_ab_apply v0 shapeCasts_S1x256x4096_S256x4096 c p
  exact congrArg (fun f => normCol f c p) e

private def sel (v20 : Vec Ideal S1x1x64 .i32) : FVec Ideal S4096x64 .f32 :=
  sitofp .f32 (extui 32 (cmpi .eq (iota .tc S4096x64 32 [0] iota_S4096x64_d0_w32)
    (broadcastTo S4096x64 (shapeCast S1x64 v20 shapeCasts_S1x1x64_S1x64) broadcasts_S1x64_S4096x64)) natLt_1_32)

theorem word_eq_iff (q : Fin 4096) (w : BitVec 32) (hw : w.toNat < 4096) :
    BitVec.ofNat 32 q.val = w ↔ q = ⟨w.toNat, hw⟩ := by
  constructor
  · intro e
    refine Fin.ext ?_
    show q.val = w.toNat
    rw [← e, BitVec.toNat_ofNat]
    exact (Nat.mod_eq_of_lt (Nat.lt_trans q.isLt (by decide))).symm
  · intro e
    subst e
    refine BitVec.eq_of_toNat_eq ?_
    rw [BitVec.toNat_ofNat]
    exact Nat.mod_eq_of_lt w.isLt

private theorem sel_apply (v20 : Vec Ideal S1x1x64 .i32)
    (h : ∀ n : Fin 64, (v20 (ix3 (0 : Fin 1) (0 : Fin 1) n)).toNat < 4096) (q : Fin 4096) (n : Fin 64) :
    sel v20 (ix2 q n) = if q = ⟨(v20 (ix3 (0 : Fin 1) (0 : Fin 1) n)).toNat, h n⟩ then (1 : EReal) else 0 := by
  have hio : iota .tc S4096x64 32 [0] iota_S4096x64_d0_w32 (ix2 q n) = BitVec.ofNat 32 q.val :=
    iota_single_apply .tc S4096x64 32 0 iota_S4096x64_d0_w32 (ix2 q n)
  have hbc : broadcastTo S4096x64 (shapeCast S1x64 v20 shapeCasts_S1x1x64_S1x64) broadcasts_S1x64_S4096x64 (ix2 q n)
      = v20 (ix3 (0 : Fin 1) (0 : Fin 1) n) :=
    (broadcastTo_1b_ab_apply _ broadcasts_S1x64_S4096x64 q n).trans
      (shapeCast_1ab_ab_apply v20 shapeCasts_S1x1x64_S1x64 0 n)
  show FloatOps.sitofp (F := Ideal) .f32
      ((IntOp.cmpi .eq (iota .tc S4096x64 32 [0] iota_S4096x64_d0_w32 (ix2 q n))
        (broadcastTo S4096x64 (shapeCast S1x64 v20 shapeCasts_S1x1x64_S1x64) broadcasts_S1x64_S4096x64 (ix2 q n))).setWidth 32) = _
  rw [hio, hbc, sitofp_eq_word]
  by_cases e : q = ⟨(v20 (ix3 (0 : Fin 1) (0 : Fin 1) n)).toNat, h n⟩
  · rw [if_pos e, if_pos ((word_eq_iff q _ (h n)).mpr e)]
  · rw [if_neg e, if_neg (fun e' => e ((word_eq_iff q _ (h n)).mp e'))]

private theorem mm1_lhs_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
private theorem mm1_lhs_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
private theorem mm1_rhs_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
private theorem mm1_rhs_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

private theorem mm1_apply (A : FVec Ideal S256x4096 .f32) (B : FVec Ideal S4096x64 .f32) (c : Fin 256) (n : Fin 64) :
    matmul dot_S256x4096_S4096x64_S256x64_1_0_0_1_n_n (some .fp32) A B (constant (F := Ideal) S256x64 .f32 0x00000000#32) (ix2 c n)
      = ∑ q : Fin 4096, A (ix2 c q) * B (ix2 q n) := by
  refine (Ideal.matmul_constant_zero_apply dot_S256x4096_S4096x64_S256x64_1_0_0_1_n_n (some .fp32) A B (ix2 c n)).trans ?_
  rw [← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 c n)
      ((contrEquiv1 dot_S256x4096_S4096x64_S256x64_1_0_0_1_n_n 4096 rfl rfl).symm k) = ix2 c k := funext fun a => Fin.ext (by
    match a with
    | ⟨0, _⟩ => exact mm1_lhs_0 _ _
    | ⟨1, _⟩ => exact (mm1_lhs_1 _ _).trans hk)
  have er : dot_S256x4096_S4096x64_S256x64_1_0_0_1_n_n.rhsIdx (ix2 c n)
      ((contrEquiv1 dot_S256x4096_S4096x64_S256x64_1_0_0_1_n_n 4096 rfl rfl).symm k) = ix2 k n := funext fun a => Fin.ext (by
    match a with
    | ⟨0, _⟩ => exact (mm1_rhs_0 _ _).trans hk
    | ⟨1, _⟩ => exact mm1_rhs_1 _ _)
  rw [el, er]

private theorem mm2_lhs_0 (i : S64x4096.Idx) (q : dot_S256x64_S256x4096_S64x4096_0_0_1_1_n_n.contr.Idx) :
    (dot_S256x64_S256x4096_S64x4096_0_0_1_1_n_n.lhsIdx i q 0).val = (q ⟨0, by decide⟩).val :=
  dot_S256x64_S256x4096_S64x4096_0_0_1_1_n_n.lhsIdx_val_of_single rfl i q
private theorem mm2_lhs_1 (i : S64x4096.Idx) (q : dot_S256x64_S256x4096_S64x4096_0_0_1_1_n_n.contr.Idx) :
    (dot_S256x64_S256x4096_S64x4096_0_0_1_1_n_n.lhsIdx i q 1).val = (i 0).val := by
  unfold DotDims.lhsIdx
  rw [dif_neg (show ¬(1 : Fin S256x64.rank) ∈ dot_S256x64_S256x4096_S64x4096_0_0_1_1_n_n.lhsBatch by decide),
    dif_pos (show (1 : Fin S256x64.rank) ∈ dot_S256x64_S256x4096_S64x4096_0_0_1_1_n_n.lhsNonContracting by decide)]
  rfl
private theorem mm2_rhs_0 (i : S64x4096.Idx) (q : dot_S256x64_S256x4096_S64x4096_0_0_1_1_n_n.contr.Idx) :
    (dot_S256x64_S256x4096_S64x4096_0_0_1_1_n_n.rhsIdx i q 0).val = (q ⟨0, by decide⟩).val :=
  dot_S256x64_S256x4096_S64x4096_0_0_1_1_n_n.rhsIdx_val_of_single rfl i q
private theorem mm2_rhs_1 (i : S64x4096.Idx) (q : dot_S256x64_S256x4096_S64x4096_0_0_1_1_n_n.contr.Idx) :
    (dot_S256x64_S256x4096_S64x4096_0_0_1_1_n_n.rhsIdx i q 1).val = (i 1).val := by
  unfold DotDims.rhsIdx
  rw [dif_neg (show ¬(1 : Fin S256x4096.rank) ∈ dot_S256x64_S256x4096_S64x4096_0_0_1_1_n_n.rhsBatch by decide),
    dif_pos (show (1 : Fin S256x4096.rank) ∈ dot_S256x64_S256x4096_S64x4096_0_0_1_1_n_n.rhsNonContracting by decide)]
  rfl

private theorem mm2_apply (A : FVec Ideal S256x64 .f32) (B : FVec Ideal S256x4096 .f32) (n : Fin 64) (p : Fin 4096) :
    matmul dot_S256x64_S256x4096_S64x4096_0_0_1_1_n_n (some .fp32) A B (constant (F := Ideal) S64x4096 .f32 0x00000000#32) (ix2 n p)
      = ∑ c : Fin 256, A (ix2 c n) * B (ix2 c p) := by
  refine (Ideal.matmul_constant_zero_apply dot_S256x64_S256x4096_S64x4096_0_0_1_1_n_n (some .fp32) A B (ix2 n p)).trans ?_
  rw [← Equiv.sum_comp (contrEquiv1 dot_S256x64_S256x4096_S64x4096_0_0_1_1_n_n 256 rfl rfl).symm]
  refine Finset.sum_congr rfl fun k _ => ?_
  have hk := contrEquiv1_symm_val dot_S256x64_S256x4096_S64x4096_0_0_1_1_n_n 256 rfl rfl k
  have el : dot_S256x64_S256x4096_S64x4096_0_0_1_1_n_n.lhsIdx (ix2 n p)
      ((contrEquiv1 dot_S256x64_S256x4096_S64x4096_0_0_1_1_n_n 256 rfl rfl).symm k) = ix2 k n := funext fun a => Fin.ext (by
    match a with
    | ⟨0, _⟩ => exact (mm2_lhs_0 _ _).trans hk
    | ⟨1, _⟩ => exact mm2_lhs_1 _ _)
  have er : dot_S256x64_S256x4096_S64x4096_0_0_1_1_n_n.rhsIdx (ix2 n p)
      ((contrEquiv1 dot_S256x64_S256x4096_S64x4096_0_0_1_1_n_n 256 rfl rfl).symm k) = ix2 k p := funext fun a => Fin.ext (by
    match a with
    | ⟨0, _⟩ => exact (mm2_rhs_0 _ _).trans hk
    | ⟨1, _⟩ => exact mm2_rhs_1 _ _)
  rw [el, er]

private def lgt (v0 v2 : Vec Ideal S1x256x4096 .f32) (v20 : Vec Ideal S1x1x64 .i32) : FVec Ideal S64x4096 .f32 :=
  divf
    (matmul dot_S256x64_S256x4096_S64x4096_0_0_1_1_n_n (some .fp32)
      (matmul dot_S256x4096_S4096x64_S256x64_1_0_0_1_n_n (some .fp32)
        (nrm (shapeCast S256x4096 v0 shapeCasts_S1x256x4096_S256x4096)) (sel v20)
        (constant (F := Ideal) S256x64 .f32 0x00000000#32))
      (nrm (shapeCast S256x4096 v2 shapeCasts_S1x256x4096_S256x4096))
      (constant (F := Ideal) S64x4096 .f32 0x00000000#32))
    (broadcast S64x4096 (Scalar.ofBits (F := Ideal) .f32 0x3C23D70A#32))

private theorem lgt_apply (v0 v2 : Vec Ideal S1x256x4096 .f32) (v20 : Vec Ideal S1x1x64 .i32)
    (h : ∀ n : Fin 64, (v20 (ix3 (0 : Fin 1) (0 : Fin 1) n)).toNat < 4096) (n : Fin 64) (p : Fin 4096) :
    lgt v0 v2 v20 (ix2 n p)
      = logit (fun c p => v0 (ix3 (0 : Fin 1) c p)) (fun c p => v2 (ix3 (0 : Fin 1) c p))
          ⟨(v20 (ix3 (0 : Fin 1) (0 : Fin 1) n)).toNat, h n⟩ p := by
  unfold lgt logit
  refine (divf_apply _ _ _).trans ?_
  refine congrArg₂ Ideal.div ?_ rfl
  refine (mm2_apply _ _ n p).trans ?_
  refine Finset.sum_congr rfl fun c _ => ?_
  refine congrArg₂ (· * ·) ?_ (nrm_sc_apply v2 c p)

  refine (mm1_apply _ _ c n).trans ?_
  refine Eq.trans (Finset.sum_congr rfl fun q _ => ?_)
    (sum_mul_indicator (fun q => normCol (fun c p => v0 (ix3 (0 : Fin 1) c p)) c q)
      ⟨(v20 (ix3 (0 : Fin 1) (0 : Fin 1) n)).toNat, h n⟩)
  exact congrArg₂ (· * ·) (nrm_sc_apply v0 c q) (sel_apply v20 h q n)

theorem pay3_apply (v0 v2 : Vec Ideal S1x256x4096 .f32) (v20 : Vec Ideal S1x1x64 .i32)
    (h : ∀ n : Fin 64, (v20 (ix3 (0 : Fin 1) (0 : Fin 1) n)).toNat < 4096) (n : Fin 64) (p : Fin 4096) :
    k0_pay3 (F := Ideal) v0 v2 v20 (ix2 n p)
      = logit (fun c p => v0 (ix3 (0 : Fin 1) c p)) (fun c p => v2 (ix3 (0 : Fin 1) c p)) ⟨(v20 (ix3 (0 : Fin 1) (0 : Fin 1) n)).toNat, h n⟩ p
        - rowMax (fun p' => logit (fun c p => v0 (ix3 (0 : Fin 1) c p)) (fun c p => v2 (ix3 (0 : Fin 1) c p))
            ⟨(v20 (ix3 (0 : Fin 1) (0 : Fin 1) n)).toNat, h n⟩ p') := by
  have hpay : k0_pay3 (F := Ideal) v0 v2 v20
      = subf (lgt v0 v2 v20)
          (broadcastTo S64x4096
            (shapeCast S64x1
              (multiReduction (F := Ideal) .maximumf [1] S64 (lgt v0 v2 v20) 0xFF800000#32 reduces_S64x4096_S64 (.inl rfl) rfl)
              shapeCasts_S64_S64x1)
            broadcasts_S64x1_S64x4096) := rfl
  rw [hpay]
  refine (subf_apply _ _ _).trans ?_
  refine congrArg₂ (· - ·) (lgt_apply v0 v2 v20 h n p) ?_

  refine (broadcastTo_apply _ broadcasts_S64x1_S64x4096 (ix2 n p) (ix2 n (0 : Fin 1)) (fun a => ?_)).trans ?_
  · match a with
    | ⟨0, _⟩ => rfl
    | ⟨1, _⟩ => rfl
  refine (shapeCast_apply _ shapeCasts_S64_S64x1 (ix2 n (0 : Fin 1)) (ix1 n) ?_).trans ?_
  · rw [Shape.rowMajor_val_one, Shape.rowMajor_val_two]
    show n.val = n.val * 1 + 0
    omega
  refine (Ideal.multiReduction_maximumf_single (lgt v0 v2 v20) _ reduces_S64x4096_S64 (.inl rfl) rfl (ix1 n)).trans ?_
  have e : (lgt v0 v2 v20 ∘ reduces_S64x4096_S64.lift (ix1 n))
      = fun p' => logit (fun c p => v0 (ix3 (0 : Fin 1) c p)) (fun c p => v2 (ix3 (0 : Fin 1) c p))
          ⟨(v20 (ix3 (0 : Fin 1) (0 : Fin 1) n)).toNat, h n⟩ p' := by
    funext p'
    have e' : reduces_S64x4096_S64.lift (ix1 n) p' = ix2 n p' := by
      funext a
      refine Fin.ext ?_
      match a with
      | ⟨0, _⟩ => rfl
      | ⟨1, _⟩ => rfl
    show lgt v0 v2 v20 (reduces_S64x4096_S64.lift (ix1 n) p') = _
    rw [e']
    exact lgt_apply v0 v2 v20 h n p'
  rw [e]
  rfl

end Cert.KernelIdeal.CE

end
-- ==== Proof.KernelBody.lean ====
/- The block the kernel body stores: for each keypoint, minus the log-softmax of its row of logits at the target cell, that entry picked
   by a sum of the row against an indicator row. -/
import proofs.«152961_j13554916786246_1_alg».proof.Proof.Gen.KernelIdeal.Frame
import proofs.«152961_j13554916786246_1_alg».proof.Proof.Spec
import proofs.«152961_j13554916786246_1_alg».proof.Proof.KernelLogits
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.CE

open Idealize.ShloMosaic Idealize.ShloMosaic.TcCoe Idealize.ShloMosaic.ValueIdx
open Cert.KernelIdeal Cert.KernelIdeal.Gen Cert.DenseCE

section Columns
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

theorem lift_row (h : S64x4096.Reduces [1] S64) (n : Fin 64) (k : Fin 4096) :
    h.lift (ix1 n) k = ix2 n k := by
  funext c
  match c with
  | ⟨0, _⟩ => rfl
  | ⟨1, _⟩ => rfl

theorem rowSum_apply (h : S64x4096.Reduces [1] S64) (hφ : FKind.Formats .f32)
    (hacc : (0x00000000#32 : BitVec 32) = FKind.add.neutral .f32 hφ) (v : FVec Ideal S64x4096 .f32) (n : Fin 64) :
    multiReduction (F := Ideal) .add [1] S64 v 0x00000000#32 h hφ hacc (ix1 n) = ∑ k : Fin 4096, v (ix2 n k) := by
  refine (Ideal.multiReduction_add_single v _ h hφ hacc (ix1 n)).trans ?_
  exact Finset.sum_congr rfl fun k _ => congrArg v (lift_row h n k)

theorem iota_col (h : S64x4096.Iotas .tc 32 [1]) (n : Fin 64) (k : Fin 4096) :
    iota .tc S64x4096 32 [1] h (ix2 n k) = BitVec.ofNat 32 k.val := by
  show BitVec.ofNat 32 (0 * 4096 + k.val) = _
  rw [Nat.zero_mul, Nat.zero_add]

theorem pay1_apply (v23 : IVec S1x64 32) (v36 v37 : FVec Ideal S64x4096 .f32)
    (h : ∀ n : Fin 64, (v23 (ix2 (0 : Fin 1) n)).toNat < 4096) (n : Fin 64) :
    k0_pay1 (F := Ideal) v23 v36 v37 (ix3 (0 : Fin 1) (0 : Fin 1) n)
      = -(v36 (ix2 n ⟨(v23 (ix2 (0 : Fin 1) n)).toNat, h n⟩) - Ideal.log (∑ k : Fin 4096, v37 (ix2 n k))) := by
  unfold k0_pay1

  refine (shapeCast_ab_1ab_apply _ _ (0 : Fin 1) (0 : Fin 1) n).trans ?_
  refine (shapeCast_a1_1a_apply _ _ (0 : Fin 1) n).trans ?_
  refine (subf_apply _ _ _).trans ?_
  refine Eq.trans (congrArg₂ (fun a b : EReal => a - b) zero_word ?_) (zero_sub _)

  refine (shapeCast_a_a1_apply _ _ n (0 : Fin 1)).trans ?_
  refine (rowSum_apply _ _ _ _ n).trans ?_
  refine Eq.trans (Finset.sum_congr rfl fun k _ => ?_)
    (sum_mul_indicator (fun k : Fin 4096 => v36 (ix2 n k) - Ideal.log (∑ k' : Fin 4096, v37 (ix2 n k')))
      ⟨(v23 (ix2 (0 : Fin 1) n)).toNat, h n⟩)
  refine (mulf_apply _ _ _).trans ?_
  refine congrArg₂ (fun a b : EReal => a * b) ?_ ?_
  ·
    refine (subf_apply _ _ _).trans ?_
    refine congrArg (fun b : EReal => v36 (ix2 n k) - b) ?_
    refine (broadcastTo_a1_ab_apply _ _ n k).trans ?_
    refine congrArg Ideal.log ?_
    exact (shapeCast_a_a1_apply _ _ n (0 : Fin 1)).trans (rowSum_apply _ _ _ v37 n)
  ·
    refine (sitofp_eq_word _ _).trans ?_
    refine if_congr ?_ rfl rfl
    refine Iff.trans (Eq.congr (iota_col _ n k) ?_) (word_eq_iff k (v23 (ix2 (0 : Fin 1) n)) (h n))
    exact (broadcastTo_a1_ab_apply _ _ n k).trans (shapeCast_1a_a1_apply _ _ n (0 : Fin 1))

theorem hz3 : (![0, 0, 0] : Fin 3 → Nat) = fun _ => 0 := funext fun a => by fin_cases a <;> rfl

theorem out_block (x0 x1 : Vec Ideal S1x256x4096 .f32) (x2 x3 : Vec Ideal S1x1x64 .i32)
    (h2 : ∀ n : Fin 64, (x2 (ix3 (0 : Fin 1) (0 : Fin 1) n)).toNat < 4096)
    (h3 : ∀ n : Fin 64, (x3 (ix3 (0 : Fin 1) (0 : Fin 1) n)).toNat < 4096) (n : Fin 64) :
    out0_4 (F := Ideal) x0 x1 x2 x3 (ix3 (0 : Fin 1) (0 : Fin 1) n)
      = nllAt (fun c p => x0 (ix3 (0 : Fin 1) c p)) (fun c p => x1 (ix3 (0 : Fin 1) c p))
          ⟨(x2 (ix3 (0 : Fin 1) (0 : Fin 1) n)).toNat, h2 n⟩ ⟨(x3 (ix3 (0 : Fin 1) (0 : Fin 1) n)).toNat, h3 n⟩ := by

  unfold out0_4
  rw [View.canon_unit_zero hz3]
  simp only [View.ld_unit_zero (S := S1x256x4096) hz3, View.ld_unit_zero (S := S1x1x64) hz3]

  have h23 : ∀ m : Fin 64, k0_pay2 (F := Ideal) x3 (ix2 (0 : Fin 1) m) = x3 (ix3 (0 : Fin 1) (0 : Fin 1) m) := fun m =>
    shapeCast_1ab_ab_apply _ _ (0 : Fin 1) m
  have hlt : ∀ m : Fin 64, (k0_pay2 (F := Ideal) x3 (ix2 (0 : Fin 1) m)).toNat < 4096 := fun m => by
    rw [h23 m]; exact h3 m
  have ht : (⟨(k0_pay2 (F := Ideal) x3 (ix2 (0 : Fin 1) n)).toNat, hlt n⟩ : Fin 4096)
      = ⟨(x3 (ix3 (0 : Fin 1) (0 : Fin 1) n)).toNat, h3 n⟩ := Fin.ext (congrArg BitVec.toNat (h23 n))
  refine (pay1_apply _ _ _ hlt n).trans ?_
  rw [ht]

  unfold nllAt logSoftmaxAt
  refine congrArg (fun a : EReal => -a) ?_
  refine congrArg₂ (fun a b : EReal => a - b) (pay3_apply x0 x1 x2 h2 n _) ?_
  refine congrArg Ideal.log (Finset.sum_congr rfl fun k _ => ?_)
  show Ideal.exp (k0_pay3 (F := Ideal) x0 x1 x2 (ix2 n k)) = _
  rw [pay3_apply x0 x1 x2 h2 n k]

end Cert.KernelIdeal.CE

end
-- ==== Proof.KernelHost.lean ====
/- The host operations before the region: the feature maps re-laid as `[32, 256, 4096]`, and each keypoint's clamped cell word. -/
import proofs.«152961_j13554916786246_1_alg».proof.Proof.Gen.KernelIdeal.Frame
import proofs.«152961_j13554916786246_1_alg».proof.Proof.Spec
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.CE

open Idealize.ShloMosaic Idealize.ShloMosaic.TcCoe Idealize.ShloMosaic.ValueIdx Idealize.SL.Sem
open Cert.KernelIdeal Cert.KernelIdeal.Gen Cert.DenseCE

def xCol (k : S32x64x2.Idx → EReal) : S32x64.Idx → EReal :=
  shapeCast S32x64 (extractStridedSlice S32x64x1 ![0, 0, 0] k Gen.slices_S32x64x2_S32x64x1_0_0_0) Gen.shapeCasts_S32x64x1_S32x64

def yCol (k : S32x64x2.Idx → EReal) : S32x64.Idx → EReal :=
  shapeCast S32x64 (extractStridedSlice S32x64x1 ![0, 0, 1] k Gen.slices_S32x64x2_S32x64x1_0_0_1) Gen.shapeCasts_S32x64x1_S32x64

theorem xCol_apply (k : S32x64x2.Idx → EReal) (b : Fin 32) (n : Fin 64) : xCol k (ix2 b n) = k (ix3 b n (0 : Fin 2)) := by
  unfold xCol
  refine (shapeCast_apply _ _ (ix2 b n) (ix3 b n (0 : Fin 1)) ?_).trans ?_
  · rw [Shape.rowMajor_val_three, Shape.rowMajor_val_two]
    show (b.val * 64 + n.val) * 1 + 0 = b.val * 64 + n.val
    omega
  · exact extractStridedSlice_apply _ k _ (ix3 b n (0 : Fin 1)) (ix3 b n (0 : Fin 2)) (fun a => match a with
      | ⟨0, _⟩ => by show b.val = 0 + b.val; omega
      | ⟨1, _⟩ => by show n.val = 0 + n.val; omega
      | ⟨2, _⟩ => by show 0 = 0 + 0; rfl)

theorem yCol_apply (k : S32x64x2.Idx → EReal) (b : Fin 32) (n : Fin 64) : yCol k (ix2 b n) = k (ix3 b n (1 : Fin 2)) := by
  unfold yCol
  refine (shapeCast_apply _ _ (ix2 b n) (ix3 b n (0 : Fin 1)) ?_).trans ?_
  · rw [Shape.rowMajor_val_three, Shape.rowMajor_val_two]
    show (b.val * 64 + n.val) * 1 + 0 = b.val * 64 + n.val
    omega
  · exact extractStridedSlice_apply _ k _ (ix3 b n (0 : Fin 1)) (ix3 b n (1 : Fin 2)) (fun a => match a with
      | ⟨0, _⟩ => by show b.val = 0 + b.val; omega
      | ⟨1, _⟩ => by show n.val = 0 + n.val; omega
      | ⟨2, _⟩ => by show 1 = 1 + 0; rfl)

def clampCells (v : S32x64.Idx → EReal) : S32x64.Idx → BitVec 32 :=
  minsi (broadcastInDim S32x64 ![] Gen.bcast_S_S32x64 (constantI S_ 32 63#32))
    (maxsi (broadcastInDim S32x64 ![] Gen.bcast_S_S32x64 (constantI S_ 32 0#32))
      (fptosi (F := Ideal) 32 (Host.divf (F := Ideal) v
        (broadcastInDim S32x64 ![] Gen.bcast_S_S32x64 (constant (F := Ideal) S_ .f32 0x41800000#32)))))

theorem clampCells_apply (v : S32x64.Idx → EReal) (j : S32x64.Idx) : clampCells v j = cellCoord (v j) := rfl

def cellWords (k : S32x64x2.Idx → EReal) : S32x1x64.Idx → BitVec 32 :=
  shapeCast S32x1x64
    (addi (muli (clampCells (yCol k)) (broadcastInDim S32x64 ![] Gen.bcast_S_S32x64 (constantI S_ 32 64#32))) (clampCells (xCol k)))
    Gen.shapeCasts_S32x64_S32x1x64

theorem cellWords_apply (k : S32x64x2.Idx → EReal) (b : Fin 32) (n : Fin 64) :
    cellWords k (ix3 b (0 : Fin 1) n) = cellWord (k (ix3 b n (0 : Fin 2))) (k (ix3 b n (1 : Fin 2))) := by
  unfold cellWords
  refine (shapeCast_apply _ _ (ix3 b (0 : Fin 1) n) (ix2 b n) ?_).trans ?_
  · rw [Shape.rowMajor_val_two, Shape.rowMajor_val_three]
    show b.val * 64 + n.val = (b.val * 1 + 0) * 64 + n.val
    omega
  · show IntOp.addi (IntOp.muli (cellCoord (yCol k (ix2 b n))) 64#32) (cellCoord (xCol k (ix2 b n))) = _
    rw [xCol_apply, yCol_apply]
    rfl

theorem relaid_apply (x : S32x256x64x64.Idx → EReal) (b : Fin 32) (ch : Fin 256) (p : Fin 4096) :
    shapeCast S32x256x4096 x Gen.shapeCasts_S32x256x64x64_S32x256x4096 (ix3 b ch p) = slab x b ch p := by
  unfold slab
  refine shapeCast_apply x _ (ix3 b ch p) _ ?_
  rw [Shape.rowMajor_val_four, Shape.rowMajor_val_three]
  have hp := p.isLt
  show ((b.val * 256 + ch.val) * 64 + p.val / 64) * 64 + p.val % 64 = (b.val * 256 + ch.val) * 4096 + p.val
  omega

variable (m : (ℓ : Loc nD τ sig) → Buf (Elt Ideal) ℓ)

theorem V_eq (c : Dev nD) :
    (V m c main_v0 : S32x256x4096.Idx → EReal)
        = shapeCast S32x256x4096 (m ((c : Thread nD τ).loc main_arg0)) Gen.shapeCasts_S32x256x64x64_S32x256x4096
      ∧ (V m c main_v1 : S32x256x4096.Idx → EReal)
        = shapeCast S32x256x4096 (m ((c : Thread nD τ).loc main_arg1)) Gen.shapeCasts_S32x256x64x64_S32x256x4096
      ∧ (V m c main_v17 : S32x1x64.Idx → BitVec 32) = cellWords (m ((c : Thread nD τ).loc main_arg2))
      ∧ (V m c main_v33 : S32x1x64.Idx → BitVec 32) = cellWords (m ((c : Thread nD τ).loc main_arg3)) := by
  refine ⟨?_, ?_, ?_, ?_⟩ <;> dsimp only [Gen.V, Gen.V0] <;>
    simp only [Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append] <;>
    after_results_simp <;> rfl

theorem V_v0_apply (c : Dev nD) (b : Fin 32) (ch : Fin 256) (p : Fin 4096) :
    (V m c main_v0 : S32x256x4096.Idx → EReal) (ix3 b ch p) = slab (m ((c : Thread nD τ).loc main_arg0)) b ch p := by
  rw [(V_eq m c).1]
  exact relaid_apply _ b ch p

theorem V_v1_apply (c : Dev nD) (b : Fin 32) (ch : Fin 256) (p : Fin 4096) :
    (V m c main_v1 : S32x256x4096.Idx → EReal) (ix3 b ch p) = slab (m ((c : Thread nD τ).loc main_arg1)) b ch p := by
  rw [(V_eq m c).2.1]
  exact relaid_apply _ b ch p

theorem V_v17_apply (c : Dev nD) (b : Fin 32) (n : Fin 64) :
    (V m c main_v17 : S32x1x64.Idx → BitVec 32) (ix3 b (0 : Fin 1) n)
      = cellWord (m ((c : Thread nD τ).loc main_arg2) (ix3 b n (0 : Fin 2))) (m ((c : Thread nD τ).loc main_arg2) (ix3 b n (1 : Fin 2))) := by
  rw [(V_eq m c).2.2.1]
  exact cellWords_apply _ b n

theorem V_v33_apply (c : Dev nD) (b : Fin 32) (n : Fin 64) :
    (V m c main_v33 : S32x1x64.Idx → BitVec 32) (ix3 b (0 : Fin 1) n)
      = cellWord (m ((c : Thread nD τ).loc main_arg3) (ix3 b n (0 : Fin 2))) (m ((c : Thread nD τ).loc main_arg3) (ix3 b n (1 : Fin 2))) := by
  rw [(V_eq m c).2.2.2]
  exact cellWords_apply _ b n

end Cert.KernelIdeal.CE

end
-- ==== Proof.KernelArray.lean ====
/- From blocks to the array: the blocks at grid point `t` are batch element `t`'s, and the written blocks cover the result array. -/
import proofs.«152961_j13554916786246_1_alg».proof.Proof.Gen.KernelIdeal.Frame
import proofs.«152961_j13554916786246_1_alg».proof.Proof.Spec
import proofs.«152961_j13554916786246_1_alg».proof.Proof.KernelBody
import proofs.«152961_j13554916786246_1_alg».proof.Proof.KernelHost
import Idealize.ShloMosaic.Lib.Pipeline.Value
import Idealize.ShloMosaic.Lib.ValueLayout
import Idealize.ShloMosaic.Lib.ValueIdx

noncomputable section

namespace Cert.KernelIdeal.CE

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseCE

variable (m : (ℓ : Loc nD τ sig) → Buf (Elt Ideal) ℓ)

def batchOf (t : Fin cfg0.N) : Fin 32 := ⟨t.val, t.isLt.trans_eq (N_0 : cfg0.N = 32)⟩

theorem idx_facts4 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem out_entry (x0 x1 : Vec Ideal S1x256x4096 .f32) (x2 x3 : Vec Ideal S1x1x64 .i32)
    (a0 a1 : SFeat.Idx → EReal) (k2 k3 : SKps.Idx → EReal) (b : Fin 32)
    (e0 : ∀ (ch : Fin 256) (p : Fin 4096), x0 (ix3 (0 : Fin 1) ch p) = slab a0 b ch p)
    (e1 : ∀ (ch : Fin 256) (p : Fin 4096), x1 (ix3 (0 : Fin 1) ch p) = slab a1 b ch p)
    (e2 : ∀ n : Fin 64, x2 (ix3 (0 : Fin 1) (0 : Fin 1) n) = cellWord (k2 (ix3 b n (0 : Fin 2))) (k2 (ix3 b n (1 : Fin 2))))
    (e3 : ∀ n : Fin 64, x3 (ix3 (0 : Fin 1) (0 : Fin 1) n) = cellWord (k3 (ix3 b n (0 : Fin 2))) (k3 (ix3 b n (1 : Fin 2))))
    (n : Fin 64) :
    out0_4 (F := Ideal) x0 x1 x2 x3 (ix3 (0 : Fin 1) (0 : Fin 1) n) = nllBN a0 a1 k2 k3 b n := by
  have h2 : ∀ n : Fin 64, (x2 (ix3 (0 : Fin 1) (0 : Fin 1) n)).toNat < 4096 := fun n => by
    rw [e2 n]; exact cellWord_lt _ _
  have h3 : ∀ n : Fin 64, (x3 (ix3 (0 : Fin 1) (0 : Fin 1) n)).toNat < 4096 := fun n => by
    rw [e3 n]; exact cellWord_lt _ _
  have hf0 : (fun (ch : Fin 256) (p : Fin 4096) => x0 (ix3 (0 : Fin 1) ch p)) = slab a0 b :=
    funext fun ch => funext fun p => e0 ch p
  have hf1 : (fun (ch : Fin 256) (p : Fin 4096) => x1 (ix3 (0 : Fin 1) ch p)) = slab a1 b :=
    funext fun ch => funext fun p => e1 ch p
  have q2 : (⟨(x2 (ix3 (0 : Fin 1) (0 : Fin 1) n)).toNat, h2 n⟩ : Fin 4096) = kpCell k2 b n := by
    apply Fin.ext
    show (x2 (ix3 (0 : Fin 1) (0 : Fin 1) n)).toNat = (cellWord (k2 (ix3 b n (0 : Fin 2))) (k2 (ix3 b n (1 : Fin 2)))).toNat
    rw [e2 n]
  have q3 : (⟨(x3 (ix3 (0 : Fin 1) (0 : Fin 1) n)).toNat, h3 n⟩ : Fin 4096) = kpCell k3 b n := by
    apply Fin.ext
    show (x3 (ix3 (0 : Fin 1) (0 : Fin 1) n)).toNat = (cellWord (k3 (ix3 b n (0 : Fin 2))) (k3 (ix3 b n (1 : Fin 2)))).toNat
    rw [e3 n]
  refine (out_block x0 x1 x2 x3 h2 h3 n).trans ?_
  rw [hf0, hf1, q2, q3]
  rfl

theorem idx_1x1x64 (j : S1x1x64.Idx) : j = ix3 (0 : Fin 1) (0 : Fin 1) (j 2) := by
  funext a
  match a with
  | ⟨0, _⟩ => exact Subsingleton.elim (α := Fin 1) _ _
  | ⟨1, _⟩ => exact Subsingleton.elim (α := Fin 1) _ _
  | ⟨2, _⟩ => rfl

theorem iblk0_apply (c : Dev nD) (t : Fin cfg0.N) (ch : Fin 256) (p : Fin 4096) :
    (iblk m c 0 t : Vec Ideal S1x256x4096 .f32) (ix3 (0 : Fin 1) ch p)
      = slab (m ((c : Thread nD τ).loc main_arg0)) (batchOf t) ch p := by
  obtain ⟨e0, e1, e2, -⟩ := idx_facts4 t
  refine Eq.trans ?_ (V_v0_apply m c (batchOf t) ch p)
  have he : ((cfg0.win 0).blk t).view.emb (ix3 (0 : Fin 1) ch p) = ix3 (batchOf t) ch p := by
    funext a; apply Fin.ext
    match a with
    | ⟨0, _⟩ => show win0_0.index t (0 : Fin 3) * 1 + 1 * 0 = t.val; omega
    | ⟨1, _⟩ => show win0_0.index t (1 : Fin 3) * 256 + 1 * ch.val = ch.val; omega
    | ⟨2, _⟩ => show win0_0.index t (2 : Fin 3) * 4096 + 1 * p.val = p.val; omega
  show V m c main_v0 (((cfg0.win 0).blk t).view.emb (ix3 (0 : Fin 1) ch p)) = V m c main_v0 (ix3 (batchOf t) ch p)
  rw [he]

theorem iblk1_apply (c : Dev nD) (t : Fin cfg0.N) (ch : Fin 256) (p : Fin 4096) :
    (iblk m c 1 t : Vec Ideal S1x256x4096 .f32) (ix3 (0 : Fin 1) ch p)
      = slab (m ((c : Thread nD τ).loc main_arg1)) (batchOf t) ch p := by
  obtain ⟨-, -, -, e0, e1, e2, -⟩ := idx_facts4 t
  refine Eq.trans ?_ (V_v1_apply m c (batchOf t) ch p)
  have he : ((cfg0.win 1).blk t).view.emb (ix3 (0 : Fin 1) ch p) = ix3 (batchOf t) ch p := by
    funext a; apply Fin.ext
    match a with
    | ⟨0, _⟩ => show win0_1.index t (0 : Fin 3) * 1 + 1 * 0 = t.val; omega
    | ⟨1, _⟩ => show win0_1.index t (1 : Fin 3) * 256 + 1 * ch.val = ch.val; omega
    | ⟨2, _⟩ => show win0_1.index t (2 : Fin 3) * 4096 + 1 * p.val = p.val; omega
  show V m c main_v1 (((cfg0.win 1).blk t).view.emb (ix3 (0 : Fin 1) ch p)) = V m c main_v1 (ix3 (batchOf t) ch p)
  rw [he]

theorem iblk2_apply (c : Dev nD) (t : Fin cfg0.N) (n : Fin 64) :
    (iblk m c 2 t : Vec Ideal S1x1x64 .i32) (ix3 (0 : Fin 1) (0 : Fin 1) n)
      = cellWord (m ((c : Thread nD τ).loc main_arg2) (ix3 (batchOf t) n (0 : Fin 2))) (m ((c : Thread nD τ).loc main_arg2) (ix3 (batchOf t) n (1 : Fin 2))) := by
  obtain ⟨-, -, -, -, -, -, e0, e1, e2, -⟩ := idx_facts4 t
  refine Eq.trans ?_ (V_v17_apply m c (batchOf t) n)
  have he : ((cfg0.win 2).blk t).view.emb (ix3 (0 : Fin 1) (0 : Fin 1) n) = ix3 (batchOf t) (0 : Fin 1) n := by
    funext a; apply Fin.ext
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 64 + 1 * n.val = n.val; omega
  show V m c main_v17 (((cfg0.win 2).blk t).view.emb (ix3 (0 : Fin 1) (0 : Fin 1) n)) = V m c main_v17 (ix3 (batchOf t) (0 : Fin 1) n)
  rw [he]

theorem iblk3_apply (c : Dev nD) (t : Fin cfg0.N) (n : Fin 64) :
    (iblk m c 3 t : Vec Ideal S1x1x64 .i32) (ix3 (0 : Fin 1) (0 : Fin 1) n)
      = cellWord (m ((c : Thread nD τ).loc main_arg3) (ix3 (batchOf t) n (0 : Fin 2))) (m ((c : Thread nD τ).loc main_arg3) (ix3 (batchOf t) n (1 : Fin 2))) := by
  obtain ⟨-, -, -, -, -, -, -, -, -, e0, e1, e2, -⟩ := idx_facts4 t
  refine Eq.trans ?_ (V_v33_apply m c (batchOf t) n)
  have he : ((cfg0.win 3).blk t).view.emb (ix3 (0 : Fin 1) (0 : Fin 1) n) = ix3 (batchOf t) (0 : Fin 1) n := by
    funext a; apply Fin.ext
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 64 + 1 * n.val = n.val; omega
  show V m c main_v33 (((cfg0.win 3).blk t).view.emb (ix3 (0 : Fin 1) (0 : Fin 1) n)) = V m c main_v33 (ix3 (batchOf t) (0 : Fin 1) n)
  rw [he]

abbrev G4 (c : Dev nD) : S32x1x64.Idx → EReal := fun i =>
  nllBN (m ((c : Thread nD τ).loc main_arg0)) (m ((c : Thread nD τ).loc main_arg1))
    (m ((c : Thread nD τ).loc main_arg2)) (m ((c : Thread nD τ).loc main_arg3)) (i 0) (i 2)

theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  obtain ⟨-, -, -, -, -, -, -, -, -, -, -, -, e0, e1, e2⟩ := idx_facts4 t
  funext j
  obtain ⟨n, rfl⟩ : ∃ n : Fin 64, j = ix3 (0 : Fin 1) (0 : Fin 1) n := ⟨j 2, idx_1x1x64 j⟩
  have he : ((cfg0.win 4).blk t).view.emb (ix3 (0 : Fin 1) (0 : Fin 1) n) = ix3 (batchOf t) (0 : Fin 1) n := by
    funext a; apply Fin.ext
    match a with
    | ⟨0, _⟩ => show win0_4.index t (0 : Fin 3) * 1 + 1 * 0 = t.val; omega
    | ⟨1, _⟩ => show win0_4.index t (1 : Fin 3) * 1 + 1 * 0 = 0; omega
    | ⟨2, _⟩ => show win0_4.index t (2 : Fin 3) * 64 + 1 * n.val = n.val; omega
  show out0_4 (F := Ideal) (iblk m c 0 t) (iblk m c 1 t) (iblk m c 2 t) (iblk m c 3 t) (ix3 (0 : Fin 1) (0 : Fin 1) n)
      = G4 m c (((cfg0.win 4).blk t).view.emb (ix3 (0 : Fin 1) (0 : Fin 1) n))
  rw [he]
  show _ = nllBN (m ((c : Thread nD τ).loc main_arg0)) (m ((c : Thread nD τ).loc main_arg1))
    (m ((c : Thread nD τ).loc main_arg2)) (m ((c : Thread nD τ).loc main_arg3)) (batchOf t) n
  exact out_entry (iblk m c 0 t) (iblk m c 1 t) (iblk m c 2 t) (iblk m c 3 t) _ _ _ _ (batchOf t)
    (iblk0_apply m c t) (iblk1_apply m c t) (iblk2_apply m c t) (iblk3_apply m c t) n

theorem mem_blk4 (t : Fin cfg0.N) (i : S32x1x64.Idx) :
    i ∈ ((cfg0.win 4).blk t).view.set ↔ ∀ a : Fin 3, win0_4.index t a * S1x1x64.size a ≤ (i a).val ∧ (i a).val < win0_4.index t a * S1x1x64.size a + S1x1x64.size a := by
  show i ∈ ((View.whole main_v34).slice (win0_4.rect t)).set ↔ _
  rw [View.set_slice_whole, Rect.mem_set_unit]
  exact Iff.rfl

theorem cover4 (i : S32x1x64.Idx) : ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 64 := (i 2).isLt
  obtain ⟨t, ht⟩ : ∃ t : Fin cfg0.N, t.val = (i 0).val := ⟨⟨(i 0).val, hi0.trans_eq (N_0 : cfg0.N = 32).symm⟩, rfl⟩
  refine ⟨t, flush0_4 t, ?_⟩
  rw [mem_blk4]
  obtain ⟨-, -, -, -, -, -, -, -, -, -, -, -, e0, e1, e2⟩ := idx_facts4 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 64 ≤ (i 2).val ∧ (i 2).val < win0_4.index t (2 : Fin 3) * 64 + 64; omega

theorem final4 (c : Dev nD) :
    (dats m 0 c).arrAt 4 cfg0.N = (fun i : S32x1x64.Idx =>
      nllBN (m ((c : Thread nD τ).loc main_arg0)) (m ((c : Thread nD τ).loc main_arg1))
        (m ((c : Thread nD τ).loc main_arg2)) (m ((c : Thread nD τ).loc main_arg3)) (i 0) (i 2)) :=
  (dats m 0 c).arrAt_eq_of_cover 4 (G4 m c) (fun t _ => flushed4_eq m c t) cover4

end Cert.KernelIdeal.CE

end
-- ==== Proof.KernelRun.lean ====
/- The host operations after the region take the masked mean of the result array, so the kernel program's run ends at the loss. -/
import proofs.«152961_j13554916786246_1_alg».proof.Proof.Gen.KernelIdeal.Frame
import proofs.«152961_j13554916786246_1_alg».proof.Proof.Spec
import proofs.«152961_j13554916786246_1_alg».proof.Proof.KernelArray
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.CE

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseCE

variable (m : (ℓ : Loc nD τ sig) → Buf (Elt Ideal) ℓ) (ρ : Dev nD → PrngReg)

theorem relay_nll (x y : SFeat.Idx → EReal) (ks kt : SKps.Idx → EReal) :
    shapeCast S32x64 (fun i : S32x1x64.Idx => nllBN x y ks kt (i 0) (i 2)) shapeCasts_S32x1x64_S32x64 = nll x y ks kt := by
  funext i
  obtain ⟨b, n, rfl⟩ : ∃ (b : Fin 32) (n : Fin 64), i = ix2 b n := ⟨i 0, i 1, eq_ix2 i⟩
  refine (shapeCast_apply _ _ _ (ix3 b (0 : Fin 1) n) ?_).trans rfl
  rw [Shape.rowMajor_val_three, Shape.rowMajor_val_two]
  show (b.val * 1 + 0) * 64 + n.val = b.val * 64 + n.val
  omega

theorem tail_eq (W : Valuation τ sig (Elt Ideal)) (v : S32x1x64.Idx → EReal) (mk : IVec S32x64 1)
    (h34 : W (Proc.devRef .tc main_v34) = v) (h4 : W (Proc.devRef .tc main_arg4) = mk) :
    StableHlo.after (hostOps1 (F := Ideal)) W (Proc.devRef .tc main_v41)
      = maskedMean reducesTo_S32x64_S_d0_1 h_S_ (shapeCast S32x64 v shapeCasts_S32x1x64_S32x64) mk := by
  after_results
  rw [h34, h4]
  rfl

theorem result_eq (c : Dev nD) :
    Pipeline.afterTail₀ cfgs (dats m) 0 (V0 m) [hostOps1] c main_v41
      = loss reducesTo_S32x64_S_d0_1 h_S_ (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v41) = _
  have h34 : Pipeline.withArrays (cfgs 0).spec c (V0 m c) (fun w => (dats m 0 c).arrAt w (cfgs 0).N) (Proc.devRef .tc main_v34)
      = (fun i : S32x1x64.Idx => nllBN (m ((c : Thread nD τ).loc main_arg0)) (m ((c : Thread nD τ).loc main_arg1))
          (m ((c : Thread nD τ).loc main_arg2)) (m ((c : Thread nD τ).loc main_arg3)) (i 0) (i 2)) :=
    (Pipeline.withArrays_arr spec0 launch0.win.arr_inj c _ _ 4).trans (final4 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  refine (tail_eq _ _ _ h34 h4).trans ?_
  rw [relay_nll]
  rfl

theorem run : θ_run defs (onTc (τ := τ) (main (F := Ideal))) ⟨m, fun _ => 0, ρ⟩ fun r => ∀ c : Dev nD,
      r.2.mem ((c.tc : Thread nD τ).loc main_v41)
        = loss reducesTo_S32x64_S_d0_1 h_S_ (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v41 (Pipeline.mem_restRefs_of main_v41 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.CE

end
-- ==== Proof.RefOps.lean ====
/- The reference program as the line of its 163 host operations, each over buffers of the TensorCore only and none allocating. -/
import proofs.«152961_j13554916786246_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [TRef.binary (TRef.of (T := ⟨S32x256x64x64, .f32⟩) main_arg0) (TRef.of (T := ⟨S32x256x64x64, .f32⟩) main_arg0) (TRef.of (T := ⟨S32x256x64x64, .f32⟩) main_call0_v0) mulf,
   TRef.nullary (TRef.of (T := ⟨S_, .f32⟩) main_call0_cst) (constant S_ .f32 0x00000000#32),
   TRef.binary (TRef.of (T := ⟨S32x256x64x64, .f32⟩) main_call0_v0) (TRef.of (T := ⟨S_, .f32⟩) main_call0_cst) (TRef.of (T := ⟨S32x64x64, .f32⟩) main_call0_v1) (fun x v => Host.reduceAdd x v reducesTo_S32x256x64x64_S32x64x64_d1 h_S_),
   TRef.unary (TRef.of (T := ⟨S32x64x64, .f32⟩) main_call0_v1) (TRef.of (T := ⟨S32x1x64x64, .f32⟩) main_call0_v2) (broadcastInDim S32x1x64x64 ![0, 2, 3] bcast_S32x64x64_S32x1x64x64_0_2_3),
   TRef.unary (TRef.of (T := ⟨S32x1x64x64, .f32⟩) main_call0_v2) (TRef.of (T := ⟨S32x1x64x64, .f32⟩) main_v0) Host.sqrt,
   nullary main_cst (constant S_ .f32 0x2B8CBCCC#32),
   unary main_cst main_v1 (broadcastInDim S32x1x64x64 ![] bcast_S_S32x1x64x64 : (⟨S_, .f32⟩ : BufTy).Contents (Elt F) → (⟨S32x1x64x64, .f32⟩ : BufTy).Contents (Elt F)),
   binary main_v0 main_v1 main_v2 (maximumf : (⟨S32x1x64x64, .f32⟩ : BufTy).Contents (Elt F) → (⟨S32x1x64x64, .f32⟩ : BufTy).Contents (Elt F) → (⟨S32x1x64x64, .f32⟩ : BufTy).Contents (Elt F)),
   unary main_v2 main_v3 (broadcastInDim S32x256x64x64 ![0, 1, 2, 3] bcast_S32x1x64x64_S32x256x64x64_0_1_2_3 : (⟨S32x1x64x64, .f32⟩ : BufTy).Contents (Elt F) → (⟨S32x256x64x64, .f32⟩ : BufTy).Contents (Elt F)),
   binary main_arg0 main_v3 main_v4 (Host.divf : (⟨S32x256x64x64, .f32⟩ : BufTy).Contents (Elt F) → (⟨S32x256x64x64, .f32⟩ : BufTy).Contents (Elt F) → (⟨S32x256x64x64, .f32⟩ : BufTy).Contents (Elt F)),
   reshape main_v4 main_v5 rfl shapeCasts_S32x256x64x64_S32x256x4096,
   TRef.binary (TRef.of (T := ⟨S32x256x64x64, .f32⟩) main_arg1) (TRef.of (T := ⟨S32x256x64x64, .f32⟩) main_arg1) (TRef.of (T := ⟨S32x256x64x64, .f32⟩) main_call1_v0) mulf,
   TRef.nullary (TRef.of (T := ⟨S_, .f32⟩) main_call1_cst) (constant S_ .f32 0x00000000#32),
   TRef.binary (TRef.of (T := ⟨S32x256x64x64, .f32⟩) main_call1_v0) (TRef.of (T := ⟨S_, .f32⟩) main_call1_cst) (TRef.of (T := ⟨S32x64x64, .f32⟩) main_call1_v1) (fun x v => Host.reduceAdd x v reducesTo_S32x256x64x64_S32x64x64_d1 h_S_),
   TRef.unary (TRef.of (T := ⟨S32x64x64, .f32⟩) main_call1_v1) (TRef.of (T := ⟨S32x1x64x64, .f32⟩) main_call1_v2) (broadcastInDim S32x1x64x64 ![0, 2, 3] bcast_S32x64x64_S32x1x64x64_0_2_3),
   TRef.unary (TRef.of (T := ⟨S32x1x64x64, .f32⟩) main_call1_v2) (TRef.of (T := ⟨S32x1x64x64, .f32⟩) main_v6) Host.sqrt,
   nullary main_cst_0 (constant S_ .f32 0x2B8CBCCC#32),
   unary main_cst_0 main_v7 (broadcastInDim S32x1x64x64 ![] bcast_S_S32x1x64x64 : (⟨S_, .f32⟩ : BufTy).Contents (Elt F) → (⟨S32x1x64x64, .f32⟩ : BufTy).Contents (Elt F)),
   binary main_v6 main_v7 main_v8 (maximumf : (⟨S32x1x64x64, .f32⟩ : BufTy).Contents (Elt F) → (⟨S32x1x64x64, .f32⟩ : BufTy).Contents (Elt F) → (⟨S32x1x64x64, .f32⟩ : BufTy).Contents (Elt F)),
   unary main_v8 main_v9 (broadcastInDim S32x256x64x64 ![0, 1, 2, 3] bcast_S32x1x64x64_S32x256x64x64_0_1_2_3 : (⟨S32x1x64x64, .f32⟩ : BufTy).Contents (Elt F) → (⟨S32x256x64x64, .f32⟩ : BufTy).Contents (Elt F)),
   binary main_arg1 main_v9 main_v10 (Host.divf : (⟨S32x256x64x64, .f32⟩ : BufTy).Contents (Elt F) → (⟨S32x256x64x64, .f32⟩ : BufTy).Contents (Elt F) → (⟨S32x256x64x64, .f32⟩ : BufTy).Contents (Elt F)),
   reshape main_v10 main_v11 rfl shapeCasts_S32x256x64x64_S32x256x4096]

abbrev opsB : List (HloOp τ sig (Elt F)) :=
  [unary main_arg2 main_v12 ((extractStridedSlice S32x64x1 ![0, 0, 0] · slices_S32x64x2_S32x64x1_0_0_0) : (⟨S32x64x2, .f32⟩ : BufTy).Contents (Elt F) → (⟨S32x64x1, .f32⟩ : BufTy).Contents (Elt F)),
   reshape main_v12 main_v13 rfl shapeCasts_S32x64x1_S32x64,
   nullary main_cst_1 (constant S_ .f32 0x41800000#32),
   unary main_cst_1 main_v14 (broadcastInDim S32x64 ![] bcast_S_S32x64 : (⟨S_, .f32⟩ : BufTy).Contents (Elt F) → (⟨S32x64, .f32⟩ : BufTy).Contents (Elt F)),
   binary main_v13 main_v14 main_v15 (Host.divf : (⟨S32x64, .f32⟩ : BufTy).Contents (Elt F) → (⟨S32x64, .f32⟩ : BufTy).Contents (Elt F) → (⟨S32x64, .f32⟩ : BufTy).Contents (Elt F)),
   unary main_v15 main_v16 (fptosi 32 : (⟨S32x64, .f32⟩ : BufTy).Contents (Elt F) → (⟨S32x64, .i32⟩ : BufTy).Contents (Elt F)),
   nullary main_c (constantI S_ 32 0#32),
   nullary main_c_2 (constantI S_ 32 63#32),
   TRef.unary (TRef.of (T := ⟨S_, .i32⟩) main_c) (TRef.of (T := ⟨S_, .i32⟩) main_call2_v0) id,
   TRef.unary (TRef.of (T := ⟨S_, .i32⟩) main_call2_v0) (TRef.of (T := ⟨S32x64, .i32⟩) main_call2_v1) (broadcastInDim S32x64 ![] bcast_S_S32x64),
   TRef.binary (TRef.of (T := ⟨S32x64, .i32⟩) main_call2_v1) (TRef.of (T := ⟨S32x64, .i32⟩) main_v16) (TRef.of (T := ⟨S32x64, .i32⟩) main_call2_v2) maxsi,
   TRef.unary (TRef.of (T := ⟨S_, .i32⟩) main_c_2) (TRef.of (T := ⟨S_, .i32⟩) main_call2_v3) id,
   TRef.unary (TRef.of (T := ⟨S_, .i32⟩) main_call2_v3) (TRef.of (T := ⟨S32x64, .i32⟩) main_call2_v4) (broadcastInDim S32x64 ![] bcast_S_S32x64),
   TRef.binary (TRef.of (T := ⟨S32x64, .i32⟩) main_call2_v4) (TRef.of (T := ⟨S32x64, .i32⟩) main_call2_v2) (TRef.of (T := ⟨S32x64, .i32⟩) main_v17) minsi,
   unary main_arg2 main_v18 ((extractStridedSlice S32x64x1 ![0, 0, 1] · slices_S32x64x2_S32x64x1_0_0_1) : (⟨S32x64x2, .f32⟩ : BufTy).Contents (Elt F) → (⟨S32x64x1, .f32⟩ : BufTy).Contents (Elt F)),
   reshape main_v18 main_v19 rfl shapeCasts_S32x64x1_S32x64,
   nullary main_cst_3 (constant S_ .f32 0x41800000#32),
   unary main_cst_3 main_v20 (broadcastInDim S32x64 ![] bcast_S_S32x64 : (⟨S_, .f32⟩ : BufTy).Contents (Elt F) → (⟨S32x64, .f32⟩ : BufTy).Contents (Elt F)),
   binary main_v19 main_v20 main_v21 (Host.divf : (⟨S32x64, .f32⟩ : BufTy).Contents (Elt F) → (⟨S32x64, .f32⟩ : BufTy).Contents (Elt F) → (⟨S32x64, .f32⟩ : BufTy).Contents (Elt F)),
   unary main_v21 main_v22 (fptosi 32 : (⟨S32x64, .f32⟩ : BufTy).Contents (Elt F) → (⟨S32x64, .i32⟩ : BufTy).Contents (Elt F)),
   nullary main_c_4 (constantI S_ 32 0#32),
   nullary main_c_5 (constantI S_ 32 63#32),
   TRef.unary (TRef.of (T := ⟨S_, .i32⟩) main_c_4) (TRef.of (T := ⟨S_, .i32⟩) main_call3_v0) id,
   TRef.unary (TRef.of (T := ⟨S_, .i32⟩) main_call3_v0) (TRef.of (T := ⟨S32x64, .i32⟩) main_call3_v1) (broadcastInDim S32x64 ![] bcast_S_S32x64),
   TRef.binary (TRef.of (T := ⟨S32x64, .i32⟩) main_call3_v1) (TRef.of (T := ⟨S32x64, .i32⟩) main_v22) (TRef.of (T := ⟨S32x64, .i32⟩) main_call3_v2) maxsi,
   TRef.unary (TRef.of (T := ⟨S_, .i32⟩) main_c_5) (TRef.of (T := ⟨S_, .i32⟩) main_call3_v3) id,
   TRef.unary (TRef.of (T := ⟨S_, .i32⟩) main_call3_v3) (TRef.of (T := ⟨S32x64, .i32⟩) main_call3_v4) (broadcastInDim S32x64 ![] bcast_S_S32x64),
   TRef.binary (TRef.of (T := ⟨S32x64, .i32⟩) main_call3_v4) (TRef.of (T := ⟨S32x64, .i32⟩) main_call3_v2) (TRef.of (T := ⟨S32x64, .i32⟩) main_v23) minsi,
   nullary main_c_6 (constantI S_ 32 64#32),
   unary main_c_6 main_v24 (broadcastInDim S32x64 ![] bcast_S_S32x64 : (⟨S_, .i32⟩ : BufTy).Contents (Elt F) → (⟨S32x64, .i32⟩ : BufTy).Contents (Elt F)),
   binary main_v23 main_v24 main_v25 (muli : (⟨S32x64, .i32⟩ : BufTy).Contents (Elt F) → (⟨S32x64, .i32⟩ : BufTy).Contents (Elt F) → (⟨S32x64, .i32⟩ : BufTy).Contents (Elt F)),
   binary main_v25 main_v17 main_v26 (addi : (⟨S32x64, .i32⟩ : BufTy).Contents (Elt F) → (⟨S32x64, .i32⟩ : BufTy).Contents (Elt F) → (⟨S32x64, .i32⟩ : BufTy).Contents (Elt F))]

abbrev opsC : List (HloOp τ sig (Elt F)) :=
  [unary main_arg3 main_v27 ((extractStridedSlice S32x64x1 ![0, 0, 0] · slices_S32x64x2_S32x64x1_0_0_0) : (⟨S32x64x2, .f32⟩ : BufTy).Contents (Elt F) → (⟨S32x64x1, .f32⟩ : BufTy).Contents (Elt F)),
   reshape main_v27 main_v28 rfl shapeCasts_S32x64x1_S32x64,
   nullary main_cst_7 (constant S_ .f32 0x41800000#32),
   unary main_cst_7 main_v29 (broadcastInDim S32x64 ![] bcast_S_S32x64 : (⟨S_, .f32⟩ : BufTy).Contents (Elt F) → (⟨S32x64, .f32⟩ : BufTy).Contents (Elt F)),
   binary main_v28 main_v29 main_v30 (Host.divf : (⟨S32x64, .f32⟩ : BufTy).Contents (Elt F) → (⟨S32x64, .f32⟩ : BufTy).Contents (Elt F) → (⟨S32x64, .f32⟩ : BufTy).Contents (Elt F)),
   unary main_v30 main_v31 (fptosi 32 : (⟨S32x64, .f32⟩ : BufTy).Contents (Elt F) → (⟨S32x64, .i32⟩ : BufTy).Contents (Elt F)),
   nullary main_c_8 (constantI S_ 32 0#32),
   nullary main_c_9 (constantI S_ 32 63#32),
   TRef.unary (TRef.of (T := ⟨S_, .i32⟩) main_c_8) (TRef.of (T := ⟨S_, .i32⟩) main_call4_v0) id,
   TRef.unary (TRef.of (T := ⟨S_, .i32⟩) main_call4_v0) (TRef.of (T := ⟨S32x64, .i32⟩) main_call4_v1) (broadcastInDim S32x64 ![] bcast_S_S32x64),
   TRef.binary (TRef.of (T := ⟨S32x64, .i32⟩) main_call4_v1) (TRef.of (T := ⟨S32x64, .i32⟩) main_v31) (TRef.of (T := ⟨S32x64, .i32⟩) main_call4_v2) maxsi,
   TRef.unary (TRef.of (T := ⟨S_, .i32⟩) main_c_9) (TRef.of (T := ⟨S_, .i32⟩) main_call4_v3) id,
   TRef.unary (TRef.of (T := ⟨S_, .i32⟩) main_call4_v3) (TRef.of (T := ⟨S32x64, .i32⟩) main_call4_v4) (broadcastInDim S32x64 ![] bcast_S_S32x64),
   TRef.binary (TRef.of (T := ⟨S32x64, .i32⟩) main_call4_v4) (TRef.of (T := ⟨S32x64, .i32⟩) main_call4_v2) (TRef.of (T := ⟨S32x64, .i32⟩) main_v32) minsi,
   unary main_arg3 main_v33 ((extractStridedSlice S32x64x1 ![0, 0, 1] · slices_S32x64x2_S32x64x1_0_0_1) : (⟨S32x64x2, .f32⟩ : BufTy).Contents (Elt F) → (⟨S32x64x1, .f32⟩ : BufTy).Contents (Elt F)),
   reshape main_v33 main_v34 rfl shapeCasts_S32x64x1_S32x64,
   nullary main_cst_10 (constant S_ .f32 0x41800000#32),
   unary main_cst_10 main_v35 (broadcastInDim S32x64 ![] bcast_S_S32x64 : (⟨S_, .f32⟩ : BufTy).Contents (Elt F) → (⟨S32x64, .f32⟩ : BufTy).Contents (Elt F)),
   binary main_v34 main_v35 main_v36 (Host.divf : (⟨S32x64, .f32⟩ : BufTy).Contents (Elt F) → (⟨S32x64, .f32⟩ : BufTy).Contents (Elt F) → (⟨S32x64, .f32⟩ : BufTy).Contents (Elt F)),
   unary main_v36 main_v37 (fptosi 32 : (⟨S32x64, .f32⟩ : BufTy).Contents (Elt F) → (⟨S32x64, .i32⟩ : BufTy).Contents (Elt F)),
   nullary main_c_11 (constantI S_ 32 0#32),
   nullary main_c_12 (constantI S_ 32 63#32),
   TRef.unary (TRef.of (T := ⟨S_, .i32⟩) main_c_11) (TRef.of (T := ⟨S_, .i32⟩) main_call5_v0) id,
   TRef.unary (TRef.of (T := ⟨S_, .i32⟩) main_call5_v0) (TRef.of (T := ⟨S32x64, .i32⟩) main_call5_v1) (broadcastInDim S32x64 ![] bcast_S_S32x64),
   TRef.binary (TRef.of (T := ⟨S32x64, .i32⟩) main_call5_v1) (TRef.of (T := ⟨S32x64, .i32⟩) main_v37) (TRef.of (T := ⟨S32x64, .i32⟩) main_call5_v2) maxsi,
   TRef.unary (TRef.of (T := ⟨S_, .i32⟩) main_c_12) (TRef.of (T := ⟨S_, .i32⟩) main_call5_v3) id,
   TRef.unary (TRef.of (T := ⟨S_, .i32⟩) main_call5_v3) (TRef.of (T := ⟨S32x64, .i32⟩) main_call5_v4) (broadcastInDim S32x64 ![] bcast_S_S32x64),
   TRef.binary (TRef.of (T := ⟨S32x64, .i32⟩) main_call5_v4) (TRef.of (T := ⟨S32x64, .i32⟩) main_call5_v2) (TRef.of (T := ⟨S32x64, .i32⟩) main_v38) minsi,
   nullary main_c_13 (constantI S_ 32 64#32),
   unary main_c_13 main_v39 (broadcastInDim S32x64 ![] bcast_S_S32x64 : (⟨S_, .i32⟩ : BufTy).Contents (Elt F) → (⟨S32x64, .i32⟩ : BufTy).Contents (Elt F)),
   binary main_v38 main_v39 main_v40 (muli : (⟨S32x64, .i32⟩ : BufTy).Contents (Elt F) → (⟨S32x64, .i32⟩ : BufTy).Contents (Elt F) → (⟨S32x64, .i32⟩ : BufTy).Contents (Elt F)),
   binary main_v40 main_v32 main_v41 (addi : (⟨S32x64, .i32⟩ : BufTy).Contents (Elt F) → (⟨S32x64, .i32⟩ : BufTy).Contents (Elt F) → (⟨S32x64, .i32⟩ : BufTy).Contents (Elt F))]

abbrev opsD : List (HloOp τ sig (Elt F)) :=
  [unary main_v26 main_v42 (broadcastInDim S32x1x64 ![0, 2] bcast_S32x64_S32x1x64_0_2 : (⟨S32x64, .i32⟩ : BufTy).Contents (Elt F) → (⟨S32x1x64, .i32⟩ : BufTy).Contents (Elt F)),
   TRef.nullary (TRef.of (T := ⟨S_, .i32⟩) main_call6_c) (constantI S_ 32 0#32),
   TRef.unary (TRef.of (T := ⟨S_, .i32⟩) main_call6_c) (TRef.of (T := ⟨S32x1x64, .i32⟩) main_call6_v0) (broadcastInDim S32x1x64 ![] bcast_S_S32x1x64),
   TRef.binary (TRef.of (T := ⟨S32x1x64, .i32⟩) main_v42) (TRef.of (T := ⟨S32x1x64, .i32⟩) main_call6_v0) (TRef.of (T := ⟨S32x1x64, .i1⟩) main_call6_v1) (cmpi .slt),
   TRef.nullary (TRef.of (T := ⟨S_, .i32⟩) main_call6_c_0) (constantI S_ 32 4096#32),
   TRef.unary (TRef.of (T := ⟨S_, .i32⟩) main_call6_c_0) (TRef.of (T := ⟨S32x1x64, .i32⟩) main_call6_v2) (broadcastInDim S32x1x64 ![] bcast_S_S32x1x64),
   TRef.binary (TRef.of (T := ⟨S32x1x64, .i32⟩) main_v42) (TRef.of (T := ⟨S32x1x64, .i32⟩) main_call6_v2) (TRef.of (T := ⟨S32x1x64, .i32⟩) main_call6_v3) addi,
   TRef.ternary (TRef.of (T := ⟨S32x1x64, .i1⟩) main_call6_v1) (TRef.of (T := ⟨S32x1x64, .i32⟩) main_call6_v3) (TRef.of (T := ⟨S32x1x64, .i32⟩) main_v42) (TRef.of (T := ⟨S32x1x64, .i32⟩) main_call6_v4) select,
   TRef.reshape (TRef.of (T := ⟨S32x1x64, .i32⟩) main_call6_v4) (TRef.of (T := ⟨S32x64x1, .i32⟩) main_call6_v5) rfl shapeCasts_S32x1x64_S32x64x1,
   TRef.nullary (TRef.of (T := ⟨S1, .i32⟩) main_call6_c_1) (constantI S1 32 4095#32),
   TRef.nullary (TRef.of (T := ⟨S_, .i32⟩) main_call6_c_2) (constantI S_ 32 0#32),
   TRef.unary (TRef.of (T := ⟨S_, .i32⟩) main_call6_c_2) (TRef.of (T := ⟨S32x64x1, .i32⟩) main_call6_v6) (broadcastInDim S32x64x1 ![] bcast_S_S32x64x1),
   TRef.binary (TRef.of (T := ⟨S32x64x1, .i32⟩) main_call6_v5) (TRef.of (T := ⟨S32x64x1, .i32⟩) main_call6_v6) (TRef.of (T := ⟨S32x64x1, .i1⟩) main_call6_v7) (cmpi .sge),
   TRef.unary (TRef.of (T := ⟨S1, .i32⟩) main_call6_c_1) (TRef.of (T := ⟨S1x1x1, .i32⟩) main_call6_v8) (broadcastInDim S1x1x1 ![2] bcast_S1_S1x1x1_2),
   TRef.unary (TRef.of (T := ⟨S1x1x1, .i32⟩) main_call6_v8) (TRef.of (T := ⟨S32x64x1, .i32⟩) main_call6_v9) (broadcastInDim S32x64x1 ![0, 1, 2] bcast_S1x1x1_S32x64x1_0_1_2),
   TRef.binary (TRef.of (T := ⟨S32x64x1, .i32⟩) main_call6_v5) (TRef.of (T := ⟨S32x64x1, .i32⟩) main_call6_v9) (TRef.of (T := ⟨S32x64x1, .i1⟩) main_call6_v10) (cmpi .sle),
   TRef.binary (TRef.of (T := ⟨S32x64x1, .i1⟩) main_call6_v7) (TRef.of (T := ⟨S32x64x1, .i1⟩) main_call6_v10) (TRef.of (T := ⟨S32x64x1, .i1⟩) main_call6_v11) andi,
   TRef.nullary (TRef.of (T := ⟨S_, .i1⟩) main_call6_c_3) (constantI S_ 1 1#1),
   TRef.binary (TRef.of (T := ⟨S32x64x1, .i1⟩) main_call6_v11) (TRef.of (T := ⟨S_, .i1⟩) main_call6_c_3) (TRef.of (T := ⟨S32x64, .i1⟩) main_call6_v12) (fun x v => Host.reduce IntOp.andi x v reducesTo_S32x64x1_S32x64_d2 h_S_),
   TRef.binary (TRef.of (T := ⟨S32x256x4096, .f32⟩) main_v5) (TRef.of (T := ⟨S32x64x1, .i32⟩) main_call6_v5) (TRef.of (T := ⟨S32x256x64, .f32⟩) main_call6_v13) (fun x i => Host.gather gather_S32x256x4096_S32x64x1_S32x256x64_1_2_0_0_2_2_12561 x i),
   TRef.unary (TRef.of (T := ⟨S32x64, .i1⟩) main_call6_v12) (TRef.of (T := ⟨S32x256x64, .i1⟩) main_call6_v14) (broadcastInDim S32x256x64 ![0, 2] bcast_S32x64_S32x256x64_0_2),
   TRef.nullary (TRef.of (T := ⟨S_, .f32⟩) main_call6_cst) (constant S_ .f32 0x7FC00000#32),
   TRef.unary (TRef.of (T := ⟨S_, .f32⟩) main_call6_cst) (TRef.of (T := ⟨S32x256x64, .f32⟩) main_call6_v15) (broadcastInDim S32x256x64 ![] bcast_S_S32x256x64),
   TRef.ternary (TRef.of (T := ⟨S32x256x64, .i1⟩) main_call6_v14) (TRef.of (T := ⟨S32x256x64, .f32⟩) main_call6_v13) (TRef.of (T := ⟨S32x256x64, .f32⟩) main_call6_v15) (TRef.of (T := ⟨S32x256x64, .f32⟩) main_v43) select]

abbrev opsE : List (HloOp τ sig (Elt F)) :=
  [binary main_v43 main_v11 main_v44 ((fun l r => Host.dotGeneral dot_S32x256x64_S32x256x4096_S32x64x4096_1_1_2_2_0_0 none l r) : (⟨S32x256x64, .f32⟩ : BufTy).Contents (Elt F) → (⟨S32x256x4096, .f32⟩ : BufTy).Contents (Elt F) → (⟨S32x64x4096, .f32⟩ : BufTy).Contents (Elt F)),
   nullary main_cst_14 (constant S_ .f32 0x3C23D70A#32),
   unary main_cst_14 main_v45 (broadcastInDim S32x64x4096 ![] bcast_S_S32x64x4096 : (⟨S_, .f32⟩ : BufTy).Contents (Elt F) → (⟨S32x64x4096, .f32⟩ : BufTy).Contents (Elt F)),
   binary main_v44 main_v45 main_v46 (Host.divf : (⟨S32x64x4096, .f32⟩ : BufTy).Contents (Elt F) → (⟨S32x64x4096, .f32⟩ : BufTy).Contents (Elt F) → (⟨S32x64x4096, .f32⟩ : BufTy).Contents (Elt F)),
   TRef.nullary (TRef.of (T := ⟨S_, .f32⟩) main_call7_cst) (constant S_ .f32 0xFF800000#32),
   TRef.binary (TRef.of (T := ⟨S32x64x4096, .f32⟩) main_v46) (TRef.of (T := ⟨S_, .f32⟩) main_call7_cst) (TRef.of (T := ⟨S32x64, .f32⟩) main_call7_v0) (fun x v => Host.reduce FloatOps.maximumf x v reducesTo_S32x64x4096_S32x64_d2 h_S_),
   TRef.nullary (TRef.of (T := ⟨S_, .f32⟩) main_call7_cst_0) (constant S_ .f32 0xFF800000#32),
   TRef.unary (TRef.of (T := ⟨S_, .f32⟩) main_call7_cst_0) (TRef.of (T := ⟨S32x64, .f32⟩) main_call7_v1) (broadcastInDim S32x64 ![] bcast_S_S32x64),
   TRef.binary (TRef.of (T := ⟨S32x64, .f32⟩) main_call7_v1) (TRef.of (T := ⟨S32x64, .f32⟩) main_call7_v0) (TRef.of (T := ⟨S32x64, .f32⟩) main_call7_v2) maximumf,
   TRef.unary (TRef.of (T := ⟨S32x64, .f32⟩) main_call7_v2) (TRef.of (T := ⟨S32x64x1, .f32⟩) main_call7_v3) (broadcastInDim S32x64x1 ![0, 1] bcast_S32x64_S32x64x1_0_1),
   TRef.unary (TRef.of (T := ⟨S32x64x1, .f32⟩) main_call7_v3) (TRef.of (T := ⟨S32x64x4096, .f32⟩) main_call7_v4) (broadcastInDim S32x64x4096 ![0, 1, 2] bcast_S32x64x1_S32x64x4096_0_1_2),
   TRef.binary (TRef.of (T := ⟨S32x64x4096, .f32⟩) main_v46) (TRef.of (T := ⟨S32x64x4096, .f32⟩) main_call7_v4) (TRef.of (T := ⟨S32x64x4096, .f32⟩) main_call7_v5) subf,
   TRef.unary (TRef.of (T := ⟨S32x64x4096, .f32⟩) main_call7_v5) (TRef.of (T := ⟨S32x64x4096, .f32⟩) main_call7_v6) Host.exp,
   TRef.nullary (TRef.of (T := ⟨S_, .f32⟩) main_call7_cst_1) (constant S_ .f32 0x00000000#32),
   TRef.binary (TRef.of (T := ⟨S32x64x4096, .f32⟩) main_call7_v6) (TRef.of (T := ⟨S_, .f32⟩) main_call7_cst_1) (TRef.of (T := ⟨S32x64, .f32⟩) main_call7_v7) (fun x v => Host.reduceAdd x v reducesTo_S32x64x4096_S32x64_d2 h_S_),
   TRef.unary (TRef.of (T := ⟨S32x64, .f32⟩) main_call7_v7) (TRef.of (T := ⟨S32x64x1, .f32⟩) main_call7_v8) (broadcastInDim S32x64x1 ![0, 1] bcast_S32x64_S32x64x1_0_1),
   TRef.unary (TRef.of (T := ⟨S32x64x1, .f32⟩) main_call7_v8) (TRef.of (T := ⟨S32x64x1, .f32⟩) main_call7_v9) Host.log,
   TRef.unary (TRef.of (T := ⟨S32x64x1, .f32⟩) main_call7_v9) (TRef.of (T := ⟨S32x64x4096, .f32⟩) main_call7_v10) (broadcastInDim S32x64x4096 ![0, 1, 2] bcast_S32x64x1_S32x64x4096_0_1_2),
   TRef.binary (TRef.of (T := ⟨S32x64x4096, .f32⟩) main_call7_v5) (TRef.of (T := ⟨S32x64x4096, .f32⟩) main_call7_v10) (TRef.of (T := ⟨S32x64x4096, .f32⟩) main_v47) subf]

abbrev opsG : List (HloOp τ sig (Elt F)) :=
  [unary main_v41 main_v48 (broadcastInDim S32x64x1 ![0, 1] bcast_S32x64_S32x64x1_0_1 : (⟨S32x64, .i32⟩ : BufTy).Contents (Elt F) → (⟨S32x64x1, .i32⟩ : BufTy).Contents (Elt F)),
   TRef.nullary (TRef.of (T := ⟨S_, .i32⟩) main_call8_c) (constantI S_ 32 0#32),
   TRef.unary (TRef.of (T := ⟨S_, .i32⟩) main_call8_c) (TRef.of (T := ⟨S32x64x1, .i32⟩) main_call8_v0) (broadcastInDim S32x64x1 ![] bcast_S_S32x64x1),
   TRef.binary (TRef.of (T := ⟨S32x64x1, .i32⟩) main_v48) (TRef.of (T := ⟨S32x64x1, .i32⟩) main_call8_v0) (TRef.of (T := ⟨S32x64x1, .i1⟩) main_call8_v1) (cmpi .slt),
   TRef.nullary (TRef.of (T := ⟨S_, .i32⟩) main_call8_c_0) (constantI S_ 32 4096#32),
   TRef.unary (TRef.of (T := ⟨S_, .i32⟩) main_call8_c_0) (TRef.of (T := ⟨S32x64x1, .i32⟩) main_call8_v2) (broadcastInDim S32x64x1 ![] bcast_S_S32x64x1),
   TRef.binary (TRef.of (T := ⟨S32x64x1, .i32⟩) main_v48) (TRef.of (T := ⟨S32x64x1, .i32⟩) main_call8_v2) (TRef.of (T := ⟨S32x64x1, .i32⟩) main_call8_v3) addi,
   TRef.ternary (TRef.of (T := ⟨S32x64x1, .i1⟩) main_call8_v1) (TRef.of (T := ⟨S32x64x1, .i32⟩) main_call8_v3) (TRef.of (T := ⟨S32x64x1, .i32⟩) main_v48) (TRef.of (T := ⟨S32x64x1, .i32⟩) main_call8_v4) select,
   TRef.reshape (TRef.of (T := ⟨S32x64x1, .i32⟩) main_call8_v4) (TRef.of (T := ⟨S32x64x1x1, .i32⟩) main_call8_v5) rfl shapeCasts_S32x64x1_S32x64x1x1,
   TRef.nullary (TRef.of (T := ⟨S1, .i32⟩) main_call8_c_1) (constantI S1 32 4095#32),
   TRef.nullary (TRef.of (T := ⟨S_, .i32⟩) main_call8_c_2) (constantI S_ 32 0#32),
   TRef.unary (TRef.of (T := ⟨S_, .i32⟩) main_call8_c_2) (TRef.of (T := ⟨S32x64x1x1, .i32⟩) main_call8_v6) (broadcastInDim S32x64x1x1 ![] bcast_S_S32x64x1x1),
   TRef.binary (TRef.of (T := ⟨S32x64x1x1, .i32⟩) main_call8_v5) (TRef.of (T := ⟨S32x64x1x1, .i32⟩) main_call8_v6) (TRef.of (T := ⟨S32x64x1x1, .i1⟩) main_call8_v7) (cmpi .sge),
   TRef.unary (TRef.of (T := ⟨S1, .i32⟩) main_call8_c_1) (TRef.of (T := ⟨S1x1x1x1, .i32⟩) main_call8_v8) (broadcastInDim S1x1x1x1 ![3] bcast_S1_S1x1x1x1_3),
   TRef.unary (TRef.of (T := ⟨S1x1x1x1, .i32⟩) main_call8_v8) (TRef.of (T := ⟨S32x64x1x1, .i32⟩) main_call8_v9) (broadcastInDim S32x64x1x1 ![0, 1, 2, 3] bcast_S1x1x1x1_S32x64x1x1_0_1_2_3),
   TRef.binary (TRef.of (T := ⟨S32x64x1x1, .i32⟩) main_call8_v5) (TRef.of (T := ⟨S32x64x1x1, .i32⟩) main_call8_v9) (TRef.of (T := ⟨S32x64x1x1, .i1⟩) main_call8_v10) (cmpi .sle),
   TRef.binary (TRef.of (T := ⟨S32x64x1x1, .i1⟩) main_call8_v7) (TRef.of (T := ⟨S32x64x1x1, .i1⟩) main_call8_v10) (TRef.of (T := ⟨S32x64x1x1, .i1⟩) main_call8_v11) andi,
   TRef.nullary (TRef.of (T := ⟨S_, .i1⟩) main_call8_c_3) (constantI S_ 1 1#1),
   TRef.binary (TRef.of (T := ⟨S32x64x1x1, .i1⟩) main_call8_v11) (TRef.of (T := ⟨S_, .i1⟩) main_call8_c_3) (TRef.of (T := ⟨S32x64x1, .i1⟩) main_call8_v12) (fun x v => Host.reduce IntOp.andi x v reducesTo_S32x64x1x1_S32x64x1_d3 h_S_),
   TRef.binary (TRef.of (T := ⟨S32x64x4096, .f32⟩) main_v47) (TRef.of (T := ⟨S32x64x1x1, .i32⟩) main_call8_v5) (TRef.of (T := ⟨S32x64x1, .f32⟩) main_call8_v13) (fun x i => Host.gather gather_S32x64x4096_S32x64x1x1_S32x64x1_n_2_01_01_2_3_111 x i),
   TRef.nullary (TRef.of (T := ⟨S_, .f32⟩) main_call8_cst) (constant S_ .f32 0x7FC00000#32),
   TRef.unary (TRef.of (T := ⟨S_, .f32⟩) main_call8_cst) (TRef.of (T := ⟨S32x64x1, .f32⟩) main_call8_v14) (broadcastInDim S32x64x1 ![] bcast_S_S32x64x1),
   TRef.ternary (TRef.of (T := ⟨S32x64x1, .i1⟩) main_call8_v12) (TRef.of (T := ⟨S32x64x1, .f32⟩) main_call8_v13) (TRef.of (T := ⟨S32x64x1, .f32⟩) main_call8_v14) (TRef.of (T := ⟨S32x64x1, .f32⟩) main_v49) select,
   reshape main_v49 main_v50 rfl shapeCasts_S32x64x1_S32x64,
   unary main_v50 main_v51 (Host.negf : (⟨S32x64, .f32⟩ : BufTy).Contents (Elt F) → (⟨S32x64, .f32⟩ : BufTy).Contents (Elt F)),
   unary main_arg4 main_v52 (uitofp .f32 : (⟨S32x64, .i1⟩ : BufTy).Contents (Elt F) → (⟨S32x64, .f32⟩ : BufTy).Contents (Elt F)),
   nullary main_cst_15 (constant S_ .f32 0x00000000#32),
   binary main_v52 main_cst_15 main_v53 ((fun x v => Host.reduceAdd x v reducesTo_S32x64_S_d0_1 h_S_) : (⟨S32x64, .f32⟩ : BufTy).Contents (Elt F) → (⟨S_, .f32⟩ : BufTy).Contents (Elt F) → (⟨S_, .f32⟩ : BufTy).Contents (Elt F)),
   binary main_v51 main_v52 main_v54 (mulf : (⟨S32x64, .f32⟩ : BufTy).Contents (Elt F) → (⟨S32x64, .f32⟩ : BufTy).Contents (Elt F) → (⟨S32x64, .f32⟩ : BufTy).Contents (Elt F)),
   nullary main_cst_16 (constant S_ .f32 0x00000000#32),
   binary main_v54 main_cst_16 main_v55 ((fun x v => Host.reduceAdd x v reducesTo_S32x64_S_d0_1 h_S_) : (⟨S32x64, .f32⟩ : BufTy).Contents (Elt F) → (⟨S_, .f32⟩ : BufTy).Contents (Elt F) → (⟨S_, .f32⟩ : BufTy).Contents (Elt F)),
   nullary main_cst_17 (constant S_ .f32 0x3F800000#32),
   binary main_v53 main_cst_17 main_v56 (maximumf : (⟨S_, .f32⟩ : BufTy).Contents (Elt F) → (⟨S_, .f32⟩ : BufTy).Contents (Elt F) → (⟨S_, .f32⟩ : BufTy).Contents (Elt F)),
   binary main_v55 main_v56 main_v57 (Host.divf : (⟨S_, .f32⟩ : BufTy).Contents (Elt F) → (⟨S_, .f32⟩ : BufTy).Contents (Elt F) → (⟨S_, .f32⟩ : BufTy).Contents (Elt F))]

abbrev opsP0 : List (HloOp τ sig (Elt F)) := opsA ++ (opsB ++ (opsC ++ opsD))
abbrev opsP1 : List (HloOp τ sig (Elt F)) := opsE ++ opsG
abbrev ops : List (HloOp τ sig (Elt F)) := opsP0 ++ opsP1

theorem main_part0_eq (c : Dev nD) : main_part0 (F := F) c = seq opsP0 := rfl
theorem main_part1_eq (c : Dev nD) : main_part1 (F := F) c = seq opsP1 := rfl
theorem main_eq (c : Dev nD) : main (F := F) c = seq ops := by
  show (main_part0 (F := F) c >>= fun _ => main_part1 (F := F) c) = seq (opsP0 ++ opsP1)
  rw [seq_append, main_part0_eq, main_part1_eq]
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.forall_append, List.Forall, nullary_bufs_sub, unary_bufs_sub, binary_bufs_sub, ternary_bufs_sub, reshape_bufs_sub, and_self]
theorem ops_fresh : (ops : List (HloOp τ sig (Elt F))).Forall fun op => op.fresh = ∅ := by
  simp only [List.forall_append]
  repeat' constructor

theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

theorem after_ops_eq (V : Valuation τ sig (Elt F)) :
    after ops V = after opsG (after opsE (after opsD (after opsC (after opsB (after opsA V))))) := by
  show after ((opsA ++ (opsB ++ (opsC ++ opsD))) ++ (opsE ++ opsG)) V = _
  rw [after_append', after_append', after_append', after_append', after_append']

end Cert.ReferenceIdeal.RunH

end
-- ==== Proof.RefRunHand.lean ====
/- The reference program's run. Cut in six stretches, the operations are read a stretch at a time: if the valuation
   before a stretch holds the arguments and the stages still to be read, so does the valuation after it. -/
import proofs.«152961_j13554916786246_1_alg».proof.Proof.RefOps
import proofs.«152961_j13554916786246_1_alg».proof.Proof.RefStages

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
variable (x0 x1 : (⟨S32x256x64x64, .f32⟩ : BufTy).Contents (Elt F)) (x2 x3 : (⟨S32x64x2, .f32⟩ : BufTy).Contents (Elt F))
  (x4 : (⟨S32x64, .i1⟩ : BufTy).Contents (Elt F)) (W : Valuation τ sig (Elt F))

abbrev Args : Prop :=
  W (Proc.devRef .tc main_arg0) = x0 ∧ W (Proc.devRef .tc main_arg1) = x1 ∧ W (Proc.devRef .tc main_arg2) = x2
    ∧ W (Proc.devRef .tc main_arg3) = x3 ∧ W (Proc.devRef .tc main_arg4) = x4

abbrev InvA : Prop :=
  Args x0 x1 x2 x3 x4 W ∧ W (Proc.devRef .tc main_v5) = val_main_v5 x0 ∧ W (Proc.devRef .tc main_v11) = val_main_v11 x1
abbrev InvB : Prop := InvA x0 x1 x2 x3 x4 W ∧ W (Proc.devRef .tc main_v26) = val_main_v26 x2
abbrev InvC : Prop := InvB x0 x1 x2 x3 x4 W ∧ W (Proc.devRef .tc main_v41) = val_main_v41 x3
abbrev InvD : Prop :=
  Args x0 x1 x2 x3 x4 W ∧ W (Proc.devRef .tc main_v11) = val_main_v11 x1 ∧ W (Proc.devRef .tc main_v41) = val_main_v41 x3
    ∧ W (Proc.devRef .tc main_v43) = val_main_v43 x0 x2
abbrev InvE : Prop :=
  Args x0 x1 x2 x3 x4 W ∧ W (Proc.devRef .tc main_v41) = val_main_v41 x3 ∧ W (Proc.devRef .tc main_v47) = val_main_v47 x0 x1 x2
abbrev InvG : Prop := Args x0 x1 x2 x3 x4 W ∧ W (Proc.devRef .tc main_v57) = val_main_v57 x0 x1 x2 x3 x4

variable {x0 x1 x2 x3 x4 W}

theorem chunkA (h : Args x0 x1 x2 x3 x4 W) : InvA x0 x1 x2 x3 x4 (after opsA W) := by
  obtain ⟨h0, h1, h2, h3, h4⟩ := h
  refine ⟨⟨?_, ?_, ?_, ?_, ?_⟩, ?_, ?_⟩ <;> after_results_simp <;> first | assumption | (simp only [h0, h1] <;> rfl)

theorem chunkB (h : InvA x0 x1 x2 x3 x4 W) : InvB x0 x1 x2 x3 x4 (after opsB W) := by
  obtain ⟨⟨h0, h1, h2, h3, h4⟩, h5, h11⟩ := h
  refine ⟨⟨⟨?_, ?_, ?_, ?_, ?_⟩, ?_, ?_⟩, ?_⟩ <;> after_results_simp <;> first | assumption | (simp only [h2] <;> rfl)

theorem chunkC (h : InvB x0 x1 x2 x3 x4 W) : InvC x0 x1 x2 x3 x4 (after opsC W) := by
  obtain ⟨⟨⟨h0, h1, h2, h3, h4⟩, h5, h11⟩, h26⟩ := h
  refine ⟨⟨⟨⟨?_, ?_, ?_, ?_, ?_⟩, ?_, ?_⟩, ?_⟩, ?_⟩ <;> after_results_simp <;> first | assumption | (simp only [h3] <;> rfl)

theorem chunkD (h : InvC x0 x1 x2 x3 x4 W) : InvD x0 x1 x2 x3 x4 (after opsD W) := by
  obtain ⟨⟨⟨⟨h0, h1, h2, h3, h4⟩, h5, h11⟩, h26⟩, h41⟩ := h
  refine ⟨⟨?_, ?_, ?_, ?_, ?_⟩, ?_, ?_, ?_⟩ <;> after_results_simp <;> first | assumption | (simp only [h5, h26, cast_cast, cast_eq] <;> rfl)

theorem chunkE (h : InvD x0 x1 x2 x3 x4 W) : InvE x0 x1 x2 x3 x4 (after opsE W) := by
  obtain ⟨⟨h0, h1, h2, h3, h4⟩, h11, h41, h43⟩ := h
  refine ⟨⟨?_, ?_, ?_, ?_, ?_⟩, ?_, ?_⟩ <;> after_results_simp <;> first | assumption | (simp only [h11, h43, cast_cast, cast_eq] <;> rfl)

theorem chunkG (h : InvE x0 x1 x2 x3 x4 W) : InvG x0 x1 x2 x3 x4 (after opsG W) := by
  obtain ⟨⟨h0, h1, h2, h3, h4⟩, h41, h47⟩ := h
  refine ⟨⟨?_, ?_, ?_, ?_, ?_⟩, ?_⟩ <;> after_results_simp <;> first | assumption | (simp only [h4, h41, h47, cast_cast, cast_eq] <;> rfl)

theorem result_ops (V : Valuation τ sig (Elt F)) :
    InvG (V (Proc.devRef .tc main_arg0)) (V (Proc.devRef .tc main_arg1)) (V (Proc.devRef .tc main_arg2)) (V (Proc.devRef .tc main_arg3))
      (V (Proc.devRef .tc main_arg4)) (after ops V) := by
  rw [after_ops_eq]
  exact chunkG (chunkE (chunkD (chunkC (chunkB (chunkA ⟨rfl, rfl, rfl, rfl, rfl⟩)))))

end Cert.ReferenceIdeal.RunH

end
-- ==== Proof.RefIdx.lean ====
/- The reference's flat cell index of a keypoint, read at an index: the cell word of its two coordinates. -/
import proofs.«152961_j13554916786246_1_alg».proof.Proof.RefStages
import proofs.«152961_j13554916786246_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.CE

open Idealize.ShloMosaic Idealize.ShloMosaic.TcCoe Idealize.ShloMosaic.ValueIdx
open Cert.ReferenceIdeal Cert.ReferenceIdeal.ReadP Cert.DenseCE

theorem idx_v18_v19 (b : Fin 32) (n : Fin 64) :
    idx_main_v18 (idx_main_v19 (ix2 b n)) = ix3 b n (1 : Fin 2) := by
  funext a
  apply Fin.ext
  have hb : b.val < 32 := b.isLt
  have hn : n.val < 64 := n.isLt
  match a with
  | ⟨0, _⟩ => show (b.val * 64 + n.val) / 64 = b.val; omega
  | ⟨1, _⟩ => show (b.val * 64 + n.val) / 1 % 64 = n.val; omega
  | ⟨2, _⟩ => rfl

theorem idx_v12_v13 (b : Fin 32) (n : Fin 64) :
    idx_main_v12 (idx_main_v13 (ix2 b n)) = ix3 b n (0 : Fin 2) := by
  funext a
  apply Fin.ext
  have hb : b.val < 32 := b.isLt
  have hn : n.val < 64 := n.isLt
  match a with
  | ⟨0, _⟩ => show (b.val * 64 + n.val) / 64 = b.val; omega
  | ⟨1, _⟩ => show (b.val * 64 + n.val) / 1 % 64 = n.val; omega
  | ⟨2, _⟩ => rfl

theorem val_v26_apply (x2 : (⟨S32x64x2, .f32⟩ : BufTy).Contents (Elt Ideal)) (b : Fin 32) (n : Fin 64) :
    val_main_v26 (F := Ideal) x2 (ix2 b n) = cellWord (x2 (ix3 b n (0 : Fin 2))) (x2 (ix3 b n (1 : Fin 2))) := by
  rw [val_main_v26_apply, val_main_v25_apply, val_main_v23_apply, val_main_call3_v4_apply, val_main_call3_v3_apply,
    val_main_c_5_apply, val_main_call3_v2_apply, val_main_call3_v1_apply, val_main_call3_v0_apply, val_main_c_4_apply,
    val_main_v22_apply, val_main_v21_apply, val_main_v19_apply, val_main_v18_apply, val_main_v20_apply,
    val_main_cst_3_apply, val_main_v24_apply, val_main_c_6_apply,
    val_main_v17_apply, val_main_call2_v4_apply, val_main_call2_v3_apply, val_main_c_2_apply, val_main_call2_v2_apply,
    val_main_call2_v1_apply, val_main_call2_v0_apply, val_main_c_apply, val_main_v16_apply, val_main_v15_apply,
    val_main_v13_apply, val_main_v12_apply, val_main_v14_apply, val_main_cst_1_apply,
    idx_v18_v19, idx_v12_v13]
  rfl

/-- The target keypoints go through the same operations as the source keypoints. -/
theorem val_v41_apply (x3 : (⟨S32x64x2, .f32⟩ : BufTy).Contents (Elt Ideal)) (b : Fin 32) (n : Fin 64) :
    val_main_v41 (F := Ideal) x3 (ix2 b n) = cellWord (x3 (ix3 b n (0 : Fin 2))) (x3 (ix3 b n (1 : Fin 2))) :=
  val_v26_apply x3 b n

end Cert.ReferenceIdeal.CE

end
-- ==== Proof.RefFeat.lean ====
/- The reference's normalised feature maps, re-laid as `[32, 256, 4096]`, read at an index. -/
import proofs.«152961_j13554916786246_1_alg».proof.Proof.RefStages
import proofs.«152961_j13554916786246_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.CE

open Idealize.ShloMosaic Idealize.ShloMosaic.TcCoe Idealize.ShloMosaic.ValueIdx
open Cert.ReferenceIdeal Cert.ReferenceIdeal.ReadP Cert.DenseCE

theorem idx_v5_ix3 (b : Fin 32) (c : Fin 256) (p : Fin 4096) :
    idx_main_v5 (ix3 b c p)
      = ix4 b c (⟨p.val / 64, by have := p.isLt; omega⟩ : Fin 64) (⟨p.val % 64, Nat.mod_lt _ (by decide)⟩ : Fin 64) := by
  funext a
  apply Fin.ext
  have hb : b.val < 32 := b.isLt
  have hc : c.val < 256 := c.isLt
  have hp : p.val < 4096 := p.isLt
  match a with
  | ⟨0, _⟩ => show ((b.val * 256 + c.val) * 4096 + p.val) / 1048576 = b.val; omega
  | ⟨1, _⟩ => show ((b.val * 256 + c.val) * 4096 + p.val) / 4096 % 256 = c.val; omega
  | ⟨2, _⟩ => show ((b.val * 256 + c.val) * 4096 + p.val) / 64 % 64 = p.val / 64; omega
  | ⟨3, _⟩ => show ((b.val * 256 + c.val) * 4096 + p.val) % 64 = p.val % 64; omega

theorem val_v4_ix4 (x0 : (⟨S32x256x64x64, .f32⟩ : BufTy).Contents (Elt Ideal)) (b : Fin 32) (c : Fin 256) (h w : Fin 64) :
    val_main_v4 (F := Ideal) x0 (ix4 b c h w)
      = Ideal.div (x0 (ix4 b c h w)) (max (Ideal.sqrt (∑ k : Fin 256, x0 (ix4 b k h w) * x0 (ix4 b k h w))) eps) := by
  rw [val_main_v4_apply, val_main_v3_apply, val_main_v2_apply, val_main_v0_apply, val_main_call0_v2_apply,
    val_main_call0_v1_apply, val_main_v1_apply, val_main_cst_apply, val_main_call0_cst_apply]
  have hs : ∀ k : Fin 256, idx_main_call0_v1 (idx_main_call0_v2 (idx_main_v3 (ix4 b c h w))) k = ix4 b k h w := by
    intro k; funext a
    match a with | ⟨0, _⟩ => rfl | ⟨1, _⟩ => rfl | ⟨2, _⟩ => rfl | ⟨3, _⟩ => rfl
  have hsum : (∑ k : Fin 256, val_main_call0_v0 (F := Ideal) x0 (idx_main_call0_v1 (idx_main_call0_v2 (idx_main_v3 (ix4 b c h w))) k))
      = ∑ k : Fin 256, x0 (ix4 b k h w) * x0 (ix4 b k h w) := by
    refine Finset.sum_congr rfl fun k _ => ?_
    rw [val_main_call0_v0_apply, hs k]
    rfl
  rw [hsum]
  simp only [Ideal.hostDivf_def, Ideal.hostUnary_sqrt_def, Ideal.maximumf_def, Ideal.ofBits_def, Ideal.ofBits_zero_f32, zero_add]
  rfl

theorem val_v5_apply (x0 : (⟨S32x256x64x64, .f32⟩ : BufTy).Contents (Elt Ideal)) (b : Fin 32) (c : Fin 256) (p : Fin 4096) :
    val_main_v5 (F := Ideal) x0 (ix3 b c p) = normCol (slab x0 b) c p := by
  rw [val_main_v5_apply, idx_v5_ix3, val_v4_ix4]
  rfl

/-- The target map goes through the same operations as the source map. -/
theorem val_v11_apply (x1 : (⟨S32x256x64x64, .f32⟩ : BufTy).Contents (Elt Ideal)) (b : Fin 32) (c : Fin 256) (p : Fin 4096) :
    val_main_v11 (F := Ideal) x1 (ix3 b c p) = normCol (slab x1 b) c p :=
  val_v5_apply x1 b c p

end Cert.ReferenceIdeal.CE

end
-- ==== Proof.RefGather1.lean ====
/- The reference's gather of the source columns: a cell word is in `[0, 4095]`, so the gather neither clamps nor fills and reads the
   normalised source column at the keypoint's cell. -/
import proofs.«152961_j13554916786246_1_alg».proof.Proof.RefStages
import proofs.«152961_j13554916786246_1_alg».proof.Proof.Spec
import proofs.«152961_j13554916786246_1_alg».proof.Proof.RefFeat
import proofs.«152961_j13554916786246_1_alg».proof.Proof.RefIdx
import Idealize.ShloMosaic.Lib.Pipeline.Value
import Idealize.ShloMosaic.Lib.ValueLayout
import Idealize.ShloMosaic.Lib.ValueIdx
import Idealize.ShloMosaic.PureOps.Ideal.Laws
import Idealize.ShloMosaic.Lib.ReduceAll

noncomputable section

namespace Cert.ReferenceIdeal.CE

open Idealize.ShloMosaic Idealize.ShloMosaic.TcCoe Idealize.ShloMosaic.ValueIdx
open Cert.ReferenceIdeal Cert.ReferenceIdeal.ReadP Cert.DenseCE

theorem word_toInt {w : BitVec 32} (h : w.toNat < 4096) : w.toInt = (w.toNat : Int) := by
  rw [BitVec.toInt_eq_toNat_cond]
  split_ifs with hc
  · rfl
  · omega

theorem word_not_neg {w : BitVec 32} (h : w.toNat < 4096) : IntOp.cmpi .slt w 0#32 = 0#1 := by
  refine eq_zero_of_ne_one ?_
  rw [IntOp.cmpi_slt, word_toInt h]
  have h0 : (0#32 : BitVec 32).toInt = 0 := by decide
  rw [h0]; omega

theorem word_ge_zero {w : BitVec 32} (h : w.toNat < 4096) : IntOp.cmpi .sge w 0#32 = 1#1 := by
  rw [IntOp.cmpi_sge, word_toInt h]
  have h0 : (0#32 : BitVec 32).toInt = 0 := by decide
  rw [h0]; omega

theorem word_le_max {w : BitVec 32} (h : w.toNat < 4096) : IntOp.cmpi .sle w 4095#32 = 1#1 := by
  rw [IntOp.cmpi_sle, word_toInt h]
  have h0 : (4095#32 : BitVec 32).toInt = 4095 := by decide
  rw [h0]; omega

theorem word_clamp {w : BitVec 32} (h : w.toNat < 4096) : min w.toInt.toNat 4095 = w.toNat := by
  rw [word_toInt h, Int.toNat_natCast]; omega

def clampCell {w : Nat} (v : BitVec w) : Fin 4096 := ⟨min v.toInt.toNat 4095, by omega⟩

theorem clampCell_cellWord (kx ky : EReal) : clampCell (cellWord kx ky) = cell kx ky :=
  Fin.ext (word_clamp (cellWord_lt kx ky))

theorem foldl_andi_one {ι : Type} (f : ι → BitVec 1) (hf : ∀ i, f i = 1#1) :
    ∀ (l : List ι), l.foldl (fun r i => IntOp.andi r (f i)) 1#1 = 1#1
  | [] => rfl
  | a :: l => by
    rw [List.foldl_cons, hf a]
    exact foldl_andi_one f hf l

private theorem gather1_apply {α : Type} {w : Nat} (x : S32x256x4096.Idx → α) (idx : IVec S32x64x1 w)
    (b : Fin 32) (c : Fin 256) (n : Fin 64) :
    Host.gather gather_S32x256x4096_S32x64x1_S32x256x64_1_2_0_0_2_2_12561 x idx (ix3 b c n)
      = x (ix3 b c (clampCell (idx (ix3 b n (0 : Fin 1))))) := by
  unfold Host.gather
  congr 1
  funext a
  refine Fin.ext ?_
  match a with
  | ⟨0, _⟩ =>
    show GatherDims.start _ (ix3 b c n) idx 0 + GatherDims.batchCoord _ (ix3 b c n) 0 + GatherDims.offCoord _ (ix3 b c n) 0 = b.val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    show GatherDims.start _ (ix3 b c n) idx 1 + GatherDims.batchCoord _ (ix3 b c n) 1 + GatherDims.offCoord _ (ix3 b c n) 1 = c.val
    rw [GatherDims.batchCoord_eq_zero _ _ _ (by decide)]
    unfold GatherDims.start GatherDims.offCoord
    rw [dif_neg (by decide), dif_pos (by decide), Nat.zero_add]
    rfl
  | ⟨2, _⟩ =>
    show GatherDims.start _ (ix3 b c n) idx 2 + GatherDims.batchCoord _ (ix3 b c n) 2 + GatherDims.offCoord _ (ix3 b c n) 2
      = min (idx (ix3 b n (0 : Fin 1))).toInt.toNat 4095
    rw [GatherDims.batchCoord_eq_zero _ _ _ (by decide), GatherDims.offCoord_eq_zero _ _ _ (by decide)]
    unfold GatherDims.start
    rw [dif_pos (by decide)]
    have hsi : GatherDims.siIdx gather_S32x256x4096_S32x64x1_S32x256x64_1_2_0_0_2_2_12561 (ix3 b c n)
        ⟨List.idxOf (2 : Fin 3) gather_S32x256x4096_S32x64x1_S32x256x64_1_2_0_0_2_2_12561.startIndexMap,
          List.idxOf_lt_length_iff.2 (by decide)⟩ = ix3 b n (0 : Fin 1) := by
      funext k; refine Fin.ext ?_
      match k with
      | ⟨0, _⟩ => rfl
      | ⟨1, _⟩ => rfl
      | ⟨2, _⟩ => rfl
    rw [hsi]
    rfl

private theorem start_word (x2 : (⟨S32x64x2, .f32⟩ : BufTy).Contents (Elt Ideal)) (b : Fin 32) (n : Fin 64) :
    val_main_call6_v5 (F := Ideal) x2 (ix3 b n (0 : Fin 1))
      = cellWord (x2 (ix3 b n (0 : Fin 2))) (x2 (ix3 b n (1 : Fin 2))) := by
  have hi : idx_main_call6_v5 (ix3 b n (0 : Fin 1)) = ix3 b (0 : Fin 1) n := by
    funext a; refine Fin.ext ?_
    match a with
    | ⟨0, _⟩ => show ((b.val * 64 + n.val) * 1 + 0) / 64 = b.val; have := n.isLt; omega
    | ⟨1, _⟩ => rfl
    | ⟨2, _⟩ => show ((b.val * 64 + n.val) * 1 + 0) % 64 = n.val; have := n.isLt; omega
  have hj : idx_main_v42 (ix3 b (0 : Fin 1) n) = ix2 b n := by
    funext a; match a with | ⟨0, _⟩ => rfl | ⟨1, _⟩ => rfl
  have hw : val_main_v42 (F := Ideal) x2 (ix3 b (0 : Fin 1) n)
      = cellWord (x2 (ix3 b n (0 : Fin 2))) (x2 (ix3 b n (1 : Fin 2))) := by
    rw [val_main_v42_apply, hj, val_v26_apply]
  rw [val_main_call6_v5_apply, hi, val_main_call6_v4_apply, val_main_call6_v1_apply, hw, val_main_call6_v0_apply,
    val_main_call6_c_apply, word_not_neg (cellWord_lt _ _), select_zero]

private theorem inRange_one (x2 : (⟨S32x64x2, .f32⟩ : BufTy).Contents (Elt Ideal)) (i : S32x64x1.Idx) :
    val_main_call6_v11 (F := Ideal) x2 i = 1#1 := by
  obtain ⟨b, n, k, rfl⟩ : ∃ b n k, i = ix3 b n k := ⟨i 0, i 1, i 2, eq_ix3 i⟩
  obtain rfl : k = (0 : Fin 1) := Fin.fin_one_eq_zero k
  rw [val_main_call6_v11_apply, val_main_call6_v7_apply, val_main_call6_v10_apply, start_word, val_main_call6_v6_apply,
    val_main_call6_c_2_apply, val_main_call6_v9_apply, val_main_call6_v8_apply, val_main_call6_c_1_apply,
    word_ge_zero (cellWord_lt _ _), word_le_max (cellWord_lt _ _)]
  rfl

private theorem mask_one (x2 : (⟨S32x64x2, .f32⟩ : BufTy).Contents (Elt Ideal)) (j : S32x64.Idx) :
    val_main_call6_v12 (F := Ideal) x2 j = 1#1 := by
  unfold val_main_call6_v12
  rw [Host.reduce_eq_foldl]
  exact foldl_andi_one _ (inRange_one x2) _

theorem val_v43_apply (x0 : (⟨S32x256x64x64, .f32⟩ : BufTy).Contents (Elt Ideal)) (x2 : (⟨S32x64x2, .f32⟩ : BufTy).Contents (Elt Ideal))
    (b : Fin 32) (c : Fin 256) (n : Fin 64) :
    val_main_v43 (F := Ideal) x0 x2 (ix3 b c n) = normCol (slab x0 b) c (kpCell x2 b n) := by
  rw [val_main_v43_apply, val_main_call6_v14_apply, mask_one, select_one]
  unfold val_main_call6_v13
  rw [gather1_apply, start_word, clampCell_cellWord]
  exact val_v5_apply x0 b c _

end Cert.ReferenceIdeal.CE

end
-- ==== Proof.RefLogits.lean ====
/- The reference's logits and their log-softmax along the last axis, read at an index. -/
import proofs.«152961_j13554916786246_1_alg».proof.Proof.RefStages
import proofs.«152961_j13554916786246_1_alg».proof.Proof.Spec
import proofs.«152961_j13554916786246_1_alg».proof.Proof.RefFeat
import proofs.«152961_j13554916786246_1_alg».proof.Proof.RefGather1
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.CE

open Idealize.ShloMosaic Idealize.ShloMosaic.TcCoe Idealize.ShloMosaic.ValueIdx
open Cert.ReferenceIdeal Cert.ReferenceIdeal.ReadP Cert.DenseCE

theorem lidx_v44_ix3 (b : Fin 32) (n : Fin 64) (p : Fin 4096) (k : Fin 256) :
    lidx_main_v44 (ix3 b n p) k = ix3 b k n := by
  funext a; apply Fin.ext
  match a with
  | ⟨0, _⟩ => rfl
  | ⟨1, _⟩ => rfl
  | ⟨2, _⟩ => rfl

theorem ridx_v44_ix3 (b : Fin 32) (n : Fin 64) (p : Fin 4096) (k : Fin 256) :
    ridx_main_v44 (ix3 b n p) k = ix3 b k p := by
  funext a; apply Fin.ext
  match a with
  | ⟨0, _⟩ => rfl
  | ⟨1, _⟩ => rfl
  | ⟨2, _⟩ => rfl

theorem val_v46_apply (x0 x1 : (⟨S32x256x64x64, .f32⟩ : BufTy).Contents (Elt Ideal)) (x2 : (⟨S32x64x2, .f32⟩ : BufTy).Contents (Elt Ideal))
    (b : Fin 32) (n : Fin 64) (p : Fin 4096) :
    val_main_v46 (F := Ideal) x0 x1 x2 (ix3 b n p) = logit (slab x0 b) (slab x1 b) (kpCell x2 b n) p := by
  rw [val_main_v46_apply, val_main_v44_apply, val_main_v45_apply, val_main_cst_14_apply]

  have hs : (∑ k : Fin 256, (val_main_v43 (F := Ideal) x0 x2) (lidx_main_v44 (ix3 b n p) k)
        * (val_main_v11 (F := Ideal) x1) (ridx_main_v44 (ix3 b n p) k))
      = ∑ c : Fin 256, normCol (slab x0 b) c (kpCell x2 b n) * normCol (slab x1 b) c p := by
    refine Finset.sum_congr rfl fun k _ => ?_
    rw [lidx_v44_ix3, ridx_v44_ix3, val_v43_apply, val_v11_apply]
  rw [hs]

  rfl

theorem lift_row (hR : S32x64x4096.Reduces [2] S32x64) (b : Fin 32) (n : Fin 64) (p : Fin 4096) :
    hR.lift (ix2 b n) p = ix3 b n p := by
  funext a; apply Fin.ext
  match a with
  | ⟨0, _⟩ => rfl
  | ⟨1, _⟩ => rfl
  | ⟨2, _⟩ => rfl

theorem val_call7_v0_apply (x0 x1 : (⟨S32x256x64x64, .f32⟩ : BufTy).Contents (Elt Ideal)) (x2 : (⟨S32x64x2, .f32⟩ : BufTy).Contents (Elt Ideal))
    (b : Fin 32) (n : Fin 64) :
    val_main_call7_v0 (F := Ideal) x0 x1 x2 (ix2 b n)
      = rowMax (fun p' => logit (slab x0 b) (slab x1 b) (kpCell x2 b n) p') := by
  have hR : S32x64x4096.Reduces [2] S32x64 := by decide
  unfold val_main_call7_v0
  rw [Host.reduce_eq_fold_single FloatOps.maximumf _ _ Gen.reducesTo_S32x64x4096_S32x64_d2 hR Gen.h_S_ (ix2 b n)]

  have hfun : (val_main_v46 (F := Ideal) x0 x1 x2 ∘ hR.lift (ix2 b n))
      = fun p' : Fin 4096 => logit (slab x0 b) (slab x1 b) (kpCell x2 b n) p' :=
    funext fun p' : Fin 4096 =>
      (congrArg (val_main_v46 (F := Ideal) x0 x1 x2) (lift_row hR b n p')).trans (val_v46_apply x0 x1 x2 b n p')
  rw [hfun, val_main_call7_cst_apply]
  rfl

theorem val_call7_v2_ix2 (x0 x1 : (⟨S32x256x64x64, .f32⟩ : BufTy).Contents (Elt Ideal)) (x2 : (⟨S32x64x2, .f32⟩ : BufTy).Contents (Elt Ideal))
    (b : Fin 32) (n : Fin 64) :
    val_main_call7_v2 (F := Ideal) x0 x1 x2 (ix2 b n)
      = rowMax (fun p' => logit (slab x0 b) (slab x1 b) (kpCell x2 b n) p') := by
  rw [val_main_call7_v2_apply, val_main_call7_v1_apply, val_main_call7_cst_0_apply, val_call7_v0_apply]
  exact max_negInf_rowMax _

theorem val_call7_v4_ix3 (x0 x1 : (⟨S32x256x64x64, .f32⟩ : BufTy).Contents (Elt Ideal)) (x2 : (⟨S32x64x2, .f32⟩ : BufTy).Contents (Elt Ideal))
    (b : Fin 32) (n : Fin 64) (p : Fin 4096) :
    val_main_call7_v4 (F := Ideal) x0 x1 x2 (ix3 b n p)
      = rowMax (fun p' => logit (slab x0 b) (slab x1 b) (kpCell x2 b n) p') := by
  rw [val_main_call7_v4_apply, val_main_call7_v3_apply]
  have hi : idx_main_call7_v3 (idx_main_call7_v4 (ix3 b n p)) = ix2 b n := by
    funext a; apply Fin.ext
    match a with
    | ⟨0, _⟩ => rfl
    | ⟨1, _⟩ => rfl
  rw [hi, val_call7_v2_ix2]

theorem val_call7_v5_ix3 (x0 x1 : (⟨S32x256x64x64, .f32⟩ : BufTy).Contents (Elt Ideal)) (x2 : (⟨S32x64x2, .f32⟩ : BufTy).Contents (Elt Ideal))
    (b : Fin 32) (n : Fin 64) (p : Fin 4096) :
    val_main_call7_v5 (F := Ideal) x0 x1 x2 (ix3 b n p)
      = logit (slab x0 b) (slab x1 b) (kpCell x2 b n) p
        - rowMax (fun p' => logit (slab x0 b) (slab x1 b) (kpCell x2 b n) p') := by
  rw [val_main_call7_v5_apply, val_v46_apply, val_call7_v4_ix3]
  rfl

theorem val_call7_v7_ix2 (x0 x1 : (⟨S32x256x64x64, .f32⟩ : BufTy).Contents (Elt Ideal)) (x2 : (⟨S32x64x2, .f32⟩ : BufTy).Contents (Elt Ideal))
    (b : Fin 32) (n : Fin 64) :
    val_main_call7_v7 (F := Ideal) x0 x1 x2 (ix2 b n)
      = ∑ k : Fin 4096, Ideal.exp (logit (slab x0 b) (slab x1 b) (kpCell x2 b n) k
          - rowMax (fun p' => logit (slab x0 b) (slab x1 b) (kpCell x2 b n) p')) := by
  rw [val_main_call7_v7_apply, val_main_call7_cst_1_apply, Ideal.ofBits_def, Ideal.ofBits_zero_f32, zero_add]
  refine Finset.sum_congr rfl fun k _ => ?_
  have hi : idx_main_call7_v7 (ix2 b n) k = ix3 b n k := by
    funext a; apply Fin.ext
    match a with
    | ⟨0, _⟩ => rfl
    | ⟨1, _⟩ => rfl
    | ⟨2, _⟩ => rfl
  rw [hi, val_main_call7_v6_apply, val_call7_v5_ix3]
  rfl

theorem val_v47_apply (x0 x1 : (⟨S32x256x64x64, .f32⟩ : BufTy).Contents (Elt Ideal)) (x2 : (⟨S32x64x2, .f32⟩ : BufTy).Contents (Elt Ideal))
    (b : Fin 32) (n : Fin 64) (p : Fin 4096) :
    val_main_v47 (F := Ideal) x0 x1 x2 (ix3 b n p)
      = logSoftmaxAt (fun p' => logit (slab x0 b) (slab x1 b) (kpCell x2 b n) p') p := by
  rw [val_main_v47_apply, val_call7_v5_ix3, val_main_call7_v10_apply, val_main_call7_v9_apply, val_main_call7_v8_apply]
  have hi : idx_main_call7_v8 (idx_main_call7_v10 (ix3 b n p)) = ix2 b n := by
    funext a; apply Fin.ext
    match a with
    | ⟨0, _⟩ => rfl
    | ⟨1, _⟩ => rfl
  rw [hi, val_call7_v7_ix2]
  rfl

end Cert.ReferenceIdeal.CE

end
-- ==== Proof.RefGather2.lean ====
/- The reference's gather of the log-softmax at the target cells, negated: the array of negative log-likelihoods. -/
import proofs.«152961_j13554916786246_1_alg».proof.Proof.RefStages
import proofs.«152961_j13554916786246_1_alg».proof.Proof.Spec
import proofs.«152961_j13554916786246_1_alg».proof.Proof.RefIdx
import proofs.«152961_j13554916786246_1_alg».proof.Proof.RefLogits
import Idealize.ShloMosaic.Lib.Pipeline.Value
import Idealize.ShloMosaic.Lib.ValueLayout
import Idealize.ShloMosaic.Lib.ValueIdx
import Idealize.ShloMosaic.PureOps.Ideal.Laws
import Idealize.ShloMosaic.Lib.ReduceAll

noncomputable section

namespace Cert.ReferenceIdeal.CE

open Idealize.ShloMosaic Idealize.ShloMosaic.TcCoe Idealize.ShloMosaic.ValueIdx
open Cert.ReferenceIdeal Cert.ReferenceIdeal.ReadP Cert.DenseCE

private theorem gather2_apply {α : Type} {w : Nat} (x : S32x64x4096.Idx → α) (idx : IVec S32x64x1x1 w)
    (b : Fin 32) (n : Fin 64) :
    Host.gather gather_S32x64x4096_S32x64x1x1_S32x64x1_n_2_01_01_2_3_111 x idx (ix3 b n (0 : Fin 1))
      = x (ix3 b n (clampCell (idx (ix4 b n (0 : Fin 1) (0 : Fin 1))))) := by
  unfold Host.gather
  congr 1
  funext a
  refine Fin.ext ?_
  match a with
  | ⟨0, _⟩ =>
    show GatherDims.start _ (ix3 b n (0 : Fin 1)) idx 0 + GatherDims.batchCoord _ (ix3 b n (0 : Fin 1)) 0
      + GatherDims.offCoord _ (ix3 b n (0 : Fin 1)) 0 = b.val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    show GatherDims.start _ (ix3 b n (0 : Fin 1)) idx 1 + GatherDims.batchCoord _ (ix3 b n (0 : Fin 1)) 1
      + GatherDims.offCoord _ (ix3 b n (0 : Fin 1)) 1 = n.val
    rw [GatherDims.start_batching _ _ _ _ (by decide), GatherDims.offCoord_eq_zero _ _ _ (by decide), Nat.zero_add, Nat.add_zero]
    unfold GatherDims.batchCoord
    rw [dif_pos (by decide)]
    rfl
  | ⟨2, _⟩ =>
    show GatherDims.start _ (ix3 b n (0 : Fin 1)) idx 2 + GatherDims.batchCoord _ (ix3 b n (0 : Fin 1)) 2
      + GatherDims.offCoord _ (ix3 b n (0 : Fin 1)) 2 = min (idx (ix4 b n (0 : Fin 1) (0 : Fin 1))).toInt.toNat 4095
    rw [GatherDims.batchCoord_eq_zero _ _ _ (by decide), GatherDims.offCoord_eq_zero _ _ _ (by decide)]
    unfold GatherDims.start
    rw [dif_pos (by decide)]
    have hsi : GatherDims.siIdx gather_S32x64x4096_S32x64x1x1_S32x64x1_n_2_01_01_2_3_111 (ix3 b n (0 : Fin 1))
        ⟨List.idxOf (2 : Fin 3) gather_S32x64x4096_S32x64x1x1_S32x64x1_n_2_01_01_2_3_111.startIndexMap,
          List.idxOf_lt_length_iff.2 (by decide)⟩ = ix4 b n (0 : Fin 1) (0 : Fin 1) := by
      funext k; refine Fin.ext ?_
      match k with
      | ⟨0, _⟩ => rfl
      | ⟨1, _⟩ => rfl
      | ⟨2, _⟩ => rfl
      | ⟨3, _⟩ => rfl
    rw [hsi]
    rfl

private theorem start_word (x3 : (⟨S32x64x2, .f32⟩ : BufTy).Contents (Elt Ideal)) (b : Fin 32) (n : Fin 64) :
    val_main_call8_v5 (F := Ideal) x3 (ix4 b n (0 : Fin 1) (0 : Fin 1))
      = cellWord (x3 (ix3 b n (0 : Fin 2))) (x3 (ix3 b n (1 : Fin 2))) := by
  have hi : idx_main_call8_v5 (ix4 b n (0 : Fin 1) (0 : Fin 1)) = ix3 b n (0 : Fin 1) := by
    funext a; refine Fin.ext ?_
    match a with
    | ⟨0, _⟩ => show (((b.val * 64 + n.val) * 1 + 0) * 1 + 0) / 64 = b.val; have := n.isLt; omega
    | ⟨1, _⟩ => show (((b.val * 64 + n.val) * 1 + 0) * 1 + 0) / 1 % 64 = n.val; have := n.isLt; omega
    | ⟨2, _⟩ => rfl
  have hj : idx_main_v48 (ix3 b n (0 : Fin 1)) = ix2 b n := by
    funext a; match a with | ⟨0, _⟩ => rfl | ⟨1, _⟩ => rfl
  have hw : val_main_v48 (F := Ideal) x3 (ix3 b n (0 : Fin 1))
      = cellWord (x3 (ix3 b n (0 : Fin 2))) (x3 (ix3 b n (1 : Fin 2))) := by
    rw [val_main_v48_apply, hj, val_v41_apply]
  rw [val_main_call8_v5_apply, hi, val_main_call8_v4_apply, val_main_call8_v1_apply, hw, val_main_call8_v0_apply,
    val_main_call8_c_apply, word_not_neg (cellWord_lt _ _), select_zero]

private theorem inRange_one (x3 : (⟨S32x64x2, .f32⟩ : BufTy).Contents (Elt Ideal)) (i : S32x64x1x1.Idx) :
    val_main_call8_v11 (F := Ideal) x3 i = 1#1 := by
  obtain ⟨b, n, k, l, rfl⟩ : ∃ b n k l, i = ix4 b n k l := ⟨i 0, i 1, i 2, i 3, eq_ix4 i⟩
  obtain rfl : k = (0 : Fin 1) := Fin.fin_one_eq_zero k
  obtain rfl : l = (0 : Fin 1) := Fin.fin_one_eq_zero l
  rw [val_main_call8_v11_apply, val_main_call8_v7_apply, val_main_call8_v10_apply, start_word, val_main_call8_v6_apply,
    val_main_call8_c_2_apply, val_main_call8_v9_apply, val_main_call8_v8_apply, val_main_call8_c_1_apply,
    word_ge_zero (cellWord_lt _ _), word_le_max (cellWord_lt _ _)]
  rfl

private theorem mask_one (x3 : (⟨S32x64x2, .f32⟩ : BufTy).Contents (Elt Ideal)) (j : S32x64x1.Idx) :
    val_main_call8_v12 (F := Ideal) x3 j = 1#1 := by
  unfold val_main_call8_v12
  rw [Host.reduce_eq_foldl]
  exact foldl_andi_one _ (inRange_one x3) _

theorem val_v51_eq (x0 x1 : (⟨S32x256x64x64, .f32⟩ : BufTy).Contents (Elt Ideal)) (x2 x3 : (⟨S32x64x2, .f32⟩ : BufTy).Contents (Elt Ideal)) :
    val_main_v51 (F := Ideal) x0 x1 x2 x3 = nll x0 x1 x2 x3 := by
  funext i
  obtain ⟨b, n, rfl⟩ : ∃ b n, i = ix2 b n := ⟨i 0, i 1, eq_ix2 i⟩
  have hi : idx_main_v50 (ix2 b n) = ix3 b n (0 : Fin 1) := by
    funext a; refine Fin.ext ?_
    match a with
    | ⟨0, _⟩ => show (b.val * 64 + n.val) / 64 = b.val; have := n.isLt; omega
    | ⟨1, _⟩ => show (b.val * 64 + n.val) / 1 % 64 = n.val; have := n.isLt; omega
    | ⟨2, _⟩ => rfl
  rw [val_main_v51_apply, val_main_v50_apply, hi, val_main_v49_apply, mask_one, select_one]
  unfold val_main_call8_v13
  rw [gather2_apply, start_word, clampCell_cellWord, Ideal.hostNegf_def, Ideal.negf_def]
  show -(val_main_v47 (F := Ideal) x0 x1 x2 (ix3 b n (kpCell x3 b n))) = nllBN x0 x1 x2 x3 b n
  rw [val_v47_apply]
  rfl

end Cert.ReferenceIdeal.CE

end
-- ==== Proof.RefRun.lean ====
/- The reference's last stage, the masked mean of the negative log-likelihoods, is the loss; so its run ends at the loss. -/
import proofs.«152961_j13554916786246_1_alg».proof.Proof.RefStages
import proofs.«152961_j13554916786246_1_alg».proof.Proof.RefRunHand
import proofs.«152961_j13554916786246_1_alg».proof.Proof.Spec
import proofs.«152961_j13554916786246_1_alg».proof.Proof.RefGather2

noncomputable section

namespace Cert.ReferenceIdeal.CE

open Idealize.ShloMosaic Idealize.ShloMosaic.TcCoe Idealize.ShloMosaic.ValueIdx Idealize.SL.Sem
open Cert.ReferenceIdeal Cert.ReferenceIdeal.Gen Cert.ReferenceIdeal.ReadP Cert.DenseCE

variable (m : (ℓ : Loc nD τ sig) → Buf (Elt Ideal) ℓ) (ρ : Dev nD → PrngReg)

theorem result_eq (x0 x1 : (⟨S32x256x64x64, .f32⟩ : BufTy).Contents (Elt Ideal)) (x2 x3 : (⟨S32x64x2, .f32⟩ : BufTy).Contents (Elt Ideal))
    (x4 : (⟨S32x64, .i1⟩ : BufTy).Contents (Elt Ideal)) :
    val_main_v57 (F := Ideal) x0 x1 x2 x3 x4 = loss reducesTo_S32x64_S_d0_1 h_S_ x0 x1 x2 x3 x4 := by
  unfold val_main_v57 val_main_v55 val_main_v56 val_main_v54 val_main_v53 val_main_v52 val_main_cst_15 val_main_cst_16 val_main_cst_17
  rw [val_v51_eq]
  rfl

theorem run : θ_run defs (onTc (τ := τ) (main (F := Ideal))) ⟨m, fun _ => 0, ρ⟩ fun r => ∀ c : Dev nD,
      r.2.mem ((c.tc : Thread nD τ).loc main_v57)
        = loss reducesTo_S32x64_S_d0_1 h_S_ (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      obtain ⟨⟨a0, a1, a2, a3, a4⟩, hv⟩ := RunH.result_ops (F := Ideal) (StableHlo.launchContents m c)
      exact ⟨((h c _).trans hv).trans (result_eq _ _ _ _ _), (h c _).trans a0, (h c _).trans a1, (h c _).trans a2, (h c _).trans a3,
        (h c _).trans a4⟩)
    (StableHlo.run_seq RunH.scopedRefs_eq RunH.scopedSems_eq defs main (fun _ => RunH.ops) RunH.main_eq (fun _ => RunH.ops_sub) m ρ
      (fun _ => List.forall_iff_forall_mem.mp RunH.ops_fresh))

end Cert.ReferenceIdeal.CE

end
-- ==== Proof.lean ====
/- Both programs end at one function of the arguments, `DenseCE.loss`. The kernel picks the source column and the target entry by summing
   against a 0/1 indicator, the reference by indexing; the two agree because `0 * x = 0` on the extended reals and a keypoint's cell is always
   in range. No step uses that the inputs are finite, and the idealization rewrote nothing. -/
import proofs.«152961_j13554916786246_1_alg».proof.Defs
import proofs.«152961_j13554916786246_1_alg».proof.Proof.Gen.Kernel
import proofs.«152961_j13554916786246_1_alg».proof.Proof.Gen.Kernel.Skeleton
import proofs.«152961_j13554916786246_1_alg».proof.Proof.Gen.Kernel.Launch
import proofs.«152961_j13554916786246_1_alg».proof.Proof.Gen.Kernel.Points
import proofs.«152961_j13554916786246_1_alg».proof.Proof.Gen.Kernel.Frame
import proofs.«152961_j13554916786246_1_alg».proof.Proof.Gen.KernelIdeal
import proofs.«152961_j13554916786246_1_alg».proof.Proof.Gen.KernelIdeal.Skeleton
import proofs.«152961_j13554916786246_1_alg».proof.Proof.Gen.KernelIdeal.Launch
import proofs.«152961_j13554916786246_1_alg».proof.Proof.Gen.KernelIdeal.Points
import proofs.«152961_j13554916786246_1_alg».proof.Proof.Gen.KernelIdeal.Frame
import proofs.«152961_j13554916786246_1_alg».proof.Proof.Gen.ReferenceIdeal
import proofs.«152961_j13554916786246_1_alg».proof.Proof.Gen.Pre_finite_inputs
import proofs.«152961_j13554916786246_1_alg».proof.Proof.Spec
import proofs.«152961_j13554916786246_1_alg».proof.Proof.KernelRun
import proofs.«152961_j13554916786246_1_alg».proof.Proof.RefRun
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.CE.run m ρ)

theorem algebraic : Cert.algebraic_KernelIdeal_ReferenceIdeal := by
  intro m ρ m' ρ' _ hagree
  refine ⟨_, Cert.KernelIdeal.CE.run m ρ, ?_⟩
  refine (θ_run Cert.ReferenceIdeal.defs _ _).mono (fun _ h c => ⟨(h c).1.trans ?_, (h c).2⟩)
    (Cert.ReferenceIdeal.CE.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
